-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v123)) (v1 : (c : Dev Cert.KernelIdeal.nD) → Buf (Elt Ideal) ((c.tc : Thread Cert.KernelIdeal.nD Cert.KernelIdeal.τ).loc Cert.KernelIdeal.main_v128_0)) (v2 : (c : Dev Cert.KernelIdeal.nD) → Buf (Elt Ideal) ((c.tc : Thread Cert.KernelIdeal.nD Cert.KernelIdeal.τ).loc Cert.KernelIdeal.main_v128_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_v128_0) = v1 c
          ∧ r.2.mem ((c.tc : Thread Cert.KernelIdeal.nD Cert.KernelIdeal.τ).loc Cert.KernelIdeal.main_v128_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v235) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S256x128x128 : S_.BroadcastsInDim S256x128x128 (![] : Fin 0 → Fin S256x128x128.rank)
  reducesTo_S256x128x128_S_d0_1_2 : S256x128x128.ReducesTo [0, 1, 2] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S2x384x256 : S_.BroadcastsInDim S2x384x256 (![] : Fin 0 → Fin S2x384x256.rank)
  reducesTo_S2x384x256_S_d0_1_2 : S2x384x256.ReducesTo [0, 1, 2] S_
  bcast_S_S2x384x128 : S_.BroadcastsInDim S2x384x128 (![] : Fin 0 → Fin S2x384x128.rank)
  reducesTo_S2x384x128_S_d0_1_2 : S2x384x128.ReducesTo [0, 1, 2] S_
  bcast_S_S2x384 : S_.BroadcastsInDim S2x384 (![] : Fin 0 → Fin S2x384.rank)
  reducesTo_S2x384_S_d0_1 : S2x384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S1x128 .f32) (main_arg17 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S1x128 .f32 := Host.absf main_arg16
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S1x128 .f32) (main_arg13 : FVec F S1 .f32) (main_arg14 : FVec F S128x128 .f32) (main_arg15 : FVec F S128 .f32) (main_arg16 : FVec F S1x128 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg12
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) (main_v33 : IVec S_ 1) : IVec S_ 1 :=
  let main_v34 : FVec F S2x384 .f32 := Host.absf main_arg8
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  let main_v39 : FVec F S2x384 .f32 := Host.absf main_arg9
  let main_cst_14 : FVec F S_ .f32 := constant S_ .f32 0x7F800000#32
  let main_v40 : FVec F S2x384 .f32 := broadcastInDim S2x384 ![] bcast_S_S2x384 main_cst_14
  let main_v41 : IVec S2x384 1 := cmpf .olt main_v39 main_v40
  let main_c_15 : IVec S_ 1 := constantI S_ 1 1#1
  let main_v42 : IVec S_ 1 := (fun x v => Host.reduce IntOp.andi x v reducesTo_S2x384_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S2x256 .f32) (main_arg6 : FVec F S2x384x256 .f32) (main_arg7 : FVec F S2x384x128 .f32) (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x384x256 .f32 := Host.absf main_arg6
  let main_cst_8 : FVec F S_ .f32 := constant S_ .f32 0x7F800000#32
  let main_v25 : FVec F S2x384x256 .f32 := broadcastInDim S2x384x256 ![] bcast_S_S2x384x256 main_cst_8
  let main_v26 : IVec S2x384x256 1 := cmpf .olt main_v24 main_v25
  let main_c_9 : IVec S_ 1 := constantI S_ 1 1#1
  let main_v27 : IVec S_ 1 := (fun x v => Host.reduce IntOp.andi x v reducesTo_S2x384x256_S_d0_1_2 h_S_) main_v26 main_c_9
  let main_v28 : IVec S_ 1 := andi main_v23 main_v27
  let main_v29 : FVec F S2x384x128 .f32 := Host.absf main_arg7
  let main_cst_10 : FVec F S_ .f32 := constant S_ .f32 0x7F800000#32
  let main_v30 : FVec F S2x384x128 .f32 := broadcastInDim S2x384x128 ![] bcast_S_S2x384x128 main_cst_10
  let main_v31 : IVec S2x384x128 1 := cmpf .olt main_v29 main_v30
  let main_c_11 : IVec S_ 1 := constantI S_ 1 1#1
  let main_v32 : IVec S_ 1 := (fun x v => Host.reduce IntOp.andi x v reducesTo_S2x384x128_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S256x128x128 .f32) (main_arg1 : IVec S2x262144 32) (main_arg2 : FVec F S2x256x256 .f32) (main_arg3 : FVec F S2x256 .f32) (main_arg4 : FVec F S2x256x256 .f32) (main_arg5 : FVec F S2x256 .f32) (main_arg6 : FVec F S2x384x256 .f32) (main_arg7 : FVec F S2x384x128 .f32) (main_arg8 : FVec F S2x384 .f32) (main_arg9 : FVec F S2x384 .f32) (main_arg10 : FVec F S128x128 .f32) (main_arg11 : FVec F S128 .f32) (main_arg12 : FVec F S1x128 .f32) (main_arg13 : FVec F S1 .f32) (main_arg14 : FVec F S128x128 .f32) (main_arg15 : FVec F S128 .f32) (main_arg16 : FVec F S1x128 .f32) (main_arg17 : FVec F S1 .f32) : IVec S_ 1 :=
  let main_v0 : FVec F S256x128x128 .f32 := Host.absf main_arg0
  let main_cst : FVec F S_ .f32 := constant S_ .f32 0x7F800000#32
  let main_v1 : FVec F S256x128x128 .f32 := broadcastInDim S256x128x128 ![] bcast_S_S256x128x128 main_cst
  let main_v2 : IVec S256x128x128 1 := cmpf .olt main_v0 main_v1
  let main_c : IVec S_ 1 := constantI S_ 1 1#1
  let main_v3 : IVec S_ 1 := (fun x v => Host.reduce IntOp.andi x v reducesTo_S256x128x128_S_d0_1_2 h_S_) main_v2 main_c
  let main_v4 : FVec F S2x256x256 .f32 := Host.absf main_arg2
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S2x256 .f32 := Host.absf main_arg3
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256x256 .f32 := Host.absf main_arg4
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S32768x128 : Shape := ⟨2, ![32768, 128]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S1x256x256 : Shape := ⟨3, ![1, 256, 256]⟩
abbrev S256x256 : Shape := ⟨2, ![256, 256]⟩
abbrev S256x128 : Shape := ⟨2, ![256, 128]⟩
abbrev S128x256 : Shape := ⟨2, ![128, 256]⟩
abbrev S1x256 : Shape := ⟨2, ![1, 256]⟩
abbrev S256 : Shape := ⟨1, ![256]⟩
abbrev S262144x256 : Shape := ⟨2, ![262144, 256]⟩
abbrev S4096x128 : Shape := ⟨2, ![4096, 128]⟩
abbrev S4096x256 : Shape := ⟨2, ![4096, 256]⟩
abbrev S32768x256 : Shape := ⟨2, ![32768, 256]⟩
abbrev S1x384x256 : Shape := ⟨3, ![1, 384, 256]⟩
abbrev S384x256 : Shape := ⟨2, ![384, 256]⟩
abbrev S256x384 : Shape := ⟨2, ![256, 384]⟩
abbrev S1x384x128 : Shape := ⟨3, ![1, 384, 128]⟩
abbrev S384x128 : Shape := ⟨2, ![384, 128]⟩
abbrev S128x384 : Shape := ⟨2, ![128, 384]⟩
abbrev S1x384 : Shape := ⟨2, ![1, 384]⟩
abbrev S384 : Shape := ⟨1, ![384]⟩
abbrev S4096x384 : Shape := ⟨2, ![4096, 384]⟩
abbrev S4096 : Shape := ⟨1, ![4096]⟩
abbrev S4096x1 : Shape := ⟨2, ![4096, 1]⟩
abbrev S128x1 : Shape := ⟨2, ![128, 1]⟩
abbrev S1x1 : Shape := ⟨2, ![1, 1]⟩
abbrev S32x128x128 : Shape := ⟨3, ![32, 128, 128]⟩
abbrev S32x128 : Shape := ⟨2, ![32, 128]⟩
abbrev S32 : Shape := ⟨1, ![32]⟩
abbrev S32x1 : Shape := ⟨2, ![32, 1]⟩

abbrev nBuf : Space → Nat
  | .hbm => 162
  | .vmem => 62
  | .smem => 0
  | _ => 0

abbrev hbmTy0_0 (i : Nat) : BufTy := match i % 128 with
  | 0 => ⟨S256x128x128, .f32⟩
  | 1 => ⟨S2x262144, .i32⟩
  | 2 => ⟨S2x256x256, .f32⟩
  | 3 => ⟨S2x256, .f32⟩
  | 4 => ⟨S2x256x256, .f32⟩
  | 5 => ⟨S2x256, .f32⟩
  | 6 => ⟨S2x384x256, .f32⟩
  | 7 => ⟨S2x384x128, .f32⟩
  | 8 => ⟨S2x384, .f32⟩
  | 9 => ⟨S2x384, .f32⟩
  | 10 => ⟨S128x128, .f32⟩
  | 11 => ⟨S128, .f32⟩
  | 12 => ⟨S1x128, .f32⟩
  | 13 => ⟨S1, .f32⟩
  | 14 => ⟨S128x128, .f32⟩
  | 15 => ⟨S128, .f32⟩
  | 16 => ⟨S1x128, .f32⟩
  | 17 => ⟨S1, .f32⟩
  | 18 => ⟨S32768x128, .f32⟩
  | 19 => ⟨S1x262144, .i32⟩
  | 20 => ⟨S262144, .i32⟩
  | 21 => ⟨S1x262144, .i32⟩
  | 22 => ⟨S262144, .i32⟩
  | 23 => ⟨S_, .i32⟩
  | 24 => ⟨S262144, .i32⟩
  | 25 => ⟨S262144, .i1⟩
  | 26 => ⟨S_, .i32⟩
  | 27 => ⟨S262144, .i32⟩
  | 28 => ⟨S262144, .i32⟩
  | 29 => ⟨S262144, .i32⟩
  | 30 => ⟨S262144x1, .i32⟩
  | 31 => ⟨S262144x128, .f32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S262144x1, .i32⟩
  | 40 => ⟨S262144x128, .f32⟩
  | 41 => ⟨S1x256x256, .f32⟩
  | 42 => ⟨S256x256, .f32⟩
  | 43 => ⟨S256x128, .f32⟩
  | 44 => ⟨S128x256, .f32⟩
  | 45 => ⟨S1x256x256, .f32⟩
  | 46 => ⟨S256x256, .f32⟩
  | 47 => ⟨S256x128, .f32⟩
  | 48 => ⟨S128x256, .f32⟩
  | 49 => ⟨S1x256x256, .f32⟩
  | 50 => ⟨S256x256, .f32⟩
  | 51 => ⟨S256x128, .f32⟩
  | 52 => ⟨S128x256, .f32⟩
  | 53 => ⟨S1x256x256, .f32⟩
  | 54 => ⟨S256x256, .f32⟩
  | 55 => ⟨S256x128, .f32⟩
  | 56 => ⟨S128x256, .f32⟩
  | 57 => ⟨S1x256, .f32⟩
  | 58 => ⟨S256, .f32⟩
  | 59 => ⟨S1x256, .f32⟩
  | 60 => ⟨S256, .f32⟩
  | 61 => ⟨S1x256, .f32⟩
  | 62 => ⟨S1x256, .f32⟩
  | 63 => ⟨S262144x256, .f32⟩
  | 64 => ⟨S262144x256, .f32⟩
  | 65 => ⟨S_, .f32⟩
  | 66 => ⟨S32768x256, .f32⟩
  | 67 => ⟨S262144x1, .i32⟩
  | 68 => ⟨S32768x256, .f32⟩
  | 69 => ⟨S_, .f32⟩
  | 70 => ⟨S32768x256, .f32⟩
  | 71 => ⟨S262144x1, .i32⟩
  | 72 => ⟨S32768x256, .f32⟩
  | 73 => ⟨S32768x256, .f32⟩
  | 74 => ⟨S1x384x256, .f32⟩
  | 75 => ⟨S384x256, .f32⟩
  | 76 => ⟨S256x384, .f32⟩
  | 77 => ⟨S1x384x128, .f32⟩
  | 78 => ⟨S384x128, .f32⟩
  | 79 => ⟨S128x384, .f32⟩
  | 80 => ⟨S1x384, .f32⟩
  | 81 => ⟨S384, .f32⟩
  | 82 => ⟨S1x384, .f32⟩
  | 83 => ⟨S384, .f32⟩
  | 84 => ⟨S1x384, .f32⟩
  | 85 => ⟨S1x384, .f32⟩
  | 86 => ⟨S32768x128, .f32⟩
  | 87 => ⟨S_, .i32⟩
  | 88 => ⟨S262144, .i32⟩
  | 89 => ⟨S262144, .i1⟩
  | 90 => ⟨S_, .i32⟩
  | 91 => ⟨S262144, .i32⟩
  | 92 => ⟨S262144, .i32⟩
  | 93 => ⟨S262144, .i32⟩
  | 94 => ⟨S262144x1, .i32⟩
  | 95 => ⟨S262144x128, .f32⟩
  | 96 => ⟨S_, .i32⟩
  | 97 => ⟨S262144, .i32⟩
  | 98 => ⟨S262144, .i1⟩
  | 99 => ⟨S_, .i32⟩
  | 100 => ⟨S262144, .i32⟩
  | 101 => ⟨S262144, .i32⟩
  | 102 => ⟨S262144, .i32⟩
  | 103 => ⟨S262144x1, .i32⟩
  | 104 => ⟨S262144x128, .f32⟩
  | 105 => ⟨S1x256x256, .f32⟩
  | 106 => ⟨S256x256, .f32⟩
  | 107 => ⟨S256x128, .f32⟩
  | 108 => ⟨S128x256, .f32⟩
  | 109 => ⟨S1x256x256, .f32⟩
  | 110 => ⟨S256x256, .f32⟩
  | 111 => ⟨S256x128, .f32⟩
  | 112 => ⟨S128x256, .f32⟩
  | 113 => ⟨S1x256x256, .f32⟩
  | 114 => ⟨S256x256, .f32⟩
  | 115 => ⟨S256x128, .f32⟩
  | 116 => ⟨S128x256, .f32⟩
  | 117 => ⟨S1x256x256, .f32⟩
  | 118 => ⟨S256x256, .f32⟩
  | 119 => ⟨S256x128, .f32⟩
  | 120 => ⟨S128x256, .f32⟩
  | 121 => ⟨S1x256, .f32⟩
  | 122 => ⟨S256, .f32⟩
  | 123 => ⟨S1x256, .f32⟩
  | 124 => ⟨S256, .f32⟩
  | 125 => ⟨S1x256, .f32⟩
  | 126 => ⟨S1x256, .f32⟩
  | 127 => ⟨S262144x256, .f32⟩
  | _ => ⟨S256x128x128, .f32⟩

abbrev hbmTy0_1 (i : Nat) : BufTy := match i % 128 with
  | 0 => ⟨S262144x256, .f32⟩
  | 1 => ⟨S_, .f32⟩
  | 2 => ⟨S32768x256, .f32⟩
  | 3 => ⟨S262144x1, .i32⟩
  | 4 => ⟨S32768x256, .f32⟩
  | 5 => ⟨S_, .f32⟩
  | 6 => ⟨S32768x256, .f32⟩
  | 7 => ⟨S262144x1, .i32⟩
  | 8 => ⟨S32768x256, .f32⟩
  | 9 => ⟨S32768x256, .f32⟩
  | 10 => ⟨S1x384x256, .f32⟩
  | 11 => ⟨S384x256, .f32⟩
  | 12 => ⟨S256x384, .f32⟩
  | 13 => ⟨S1x384x128, .f32⟩
  | 14 => ⟨S384x128, .f32⟩
  | 15 => ⟨S128x384, .f32⟩
  | 16 => ⟨S1x384, .f32⟩
  | 17 => ⟨S384, .f32⟩
  | 18 => ⟨S1x384, .f32⟩
  | 19 => ⟨S384, .f32⟩
  | 20 => ⟨S1x384, .f32⟩
  | 21 => ⟨S1x384, .f32⟩
  | 22 => ⟨S32768x128, .f32⟩
  | 23 => ⟨S128x128, .f32⟩
  | 24 => ⟨S128x1, .f32⟩
  | 25 => ⟨S128x128, .f32⟩
  | 26 => ⟨S128x1, .f32⟩
  | 27 => ⟨S256x128x128, .f32⟩
  | 28 => ⟨S1x128, .f32⟩
  | 29 => ⟨S1x1, .f32⟩
  | 30 => ⟨S1x128, .f32⟩
  | 31 => ⟨S1x1, .f32⟩
  | 32 => ⟨S256x128, .f32⟩
  | 33 => ⟨S256x128, .f32⟩
  | _ => ⟨S256x128x128, .f32⟩

abbrev hbmTy (i : Nat) : BufTy := match i / 128 with
  | 0 => hbmTy0_0 i
  | 1 => hbmTy0_1 i
  | _ => ⟨S256x128x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S1x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | .local _ .vmem, ⟨16, _⟩ => ⟨S4096x128, .f32⟩
  | .local _ .vmem, ⟨17, _⟩ => ⟨S4096x128, .f32⟩
  | .local _ .vmem, ⟨18, _⟩ => ⟨S256x384, .f32⟩
  | .local _ .vmem, ⟨19, _⟩ => ⟨S128x384, .f32⟩
  | .local _ .vmem, ⟨20, _⟩ => ⟨S1x384, .f32⟩
  | .local _ .vmem, ⟨21, _⟩ => ⟨S1x384, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S1x256, .f32⟩
  | .local _ .vmem, ⟨33, _⟩ => ⟨S1x256, .f32⟩
  | .local _ .vmem, ⟨34, _⟩ => ⟨S4096x256, .f32⟩
  | .local _ .vmem, ⟨35, _⟩ => ⟨S4096x256, .f32⟩
  | .local _ .vmem, ⟨36, _⟩ => ⟨S4096x256, .f32⟩
  | .local _ .vmem, ⟨37, _⟩ => ⟨S4096x256, .f32⟩
  | .local _ .vmem, ⟨38, _⟩ => ⟨S4096x256, .f32⟩
  | .local _ .vmem, ⟨39, _⟩ => ⟨S4096x256, .f32⟩
  | .local _ .vmem, ⟨40, _⟩ => ⟨S4096x128, .f32⟩
  | .local _ .vmem, ⟨41, _⟩ => ⟨S4096x128, .f32⟩
  | .local _ .vmem, ⟨42, _⟩ => ⟨S256x384, .f32⟩
  | .local _ .vmem, ⟨43, _⟩ => ⟨S128x384, .f32⟩
  | .local _ .vmem, ⟨44, _⟩ => ⟨S1x384, .f32⟩
  | .local _ .vmem, ⟨45, _⟩ => ⟨S1x384, .f32⟩
  | .local _ .vmem, ⟨46, _⟩ => ⟨S4096x128, .f32⟩
  | .local _ .vmem, ⟨47, _⟩ => ⟨S4096x128, .f32⟩
  | .local _ .vmem, ⟨48, _⟩ => ⟨S32x128x128, .f32⟩
  | .local _ .vmem, ⟨49, _⟩ => ⟨S32x128x128, .f32⟩
  | .local _ .vmem, ⟨50, _⟩ => ⟨S128x128, .f32⟩
  | .local _ .vmem, ⟨51, _⟩ => ⟨S1x128, .f32⟩
  | .local _ .vmem, ⟨52, _⟩ => ⟨S128x1, .f32⟩
  | .local _ .vmem, ⟨53, _⟩ => ⟨S1x1, .f32⟩
  | .local _ .vmem, ⟨54, _⟩ => ⟨S128x128, .f32⟩
  | .local _ .vmem, ⟨55, _⟩ => ⟨S1x128, .f32⟩
  | .local _ .vmem, ⟨56, _⟩ => ⟨S128x1, .f32⟩
  | .local _ .vmem, ⟨57, _⟩ => ⟨S1x1, .f32⟩
  | .local _ .vmem, ⟨58, _⟩ => ⟨S32x128, .f32⟩
  | .local _ .vmem, ⟨59, _⟩ => ⟨S32x128, .f32⟩
  | .local _ .vmem, ⟨60, _⟩ => ⟨S32x128, .f32⟩
  | .local _ .vmem, ⟨61, _⟩ => ⟨S32x128, .f32⟩
  | _, _ => ⟨S256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_cst : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_4 : Ref sig .tc := ⟨.hbm, 87, rfl⟩
abbrev main_v62 : Ref sig .tc := ⟨.hbm, 88, rfl⟩
abbrev main_v63 : Ref sig .tc := ⟨.hbm, 89, rfl⟩
abbrev main_c_5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_6 : Ref sig .tc := ⟨.hbm, 96, rfl⟩
abbrev main_v69 : Ref sig .tc := ⟨.hbm, 97, rfl⟩
abbrev main_v70 : Ref sig .tc := ⟨.hbm, 98, rfl⟩
abbrev main_c_7 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98_0 : Ref sig .tc := ⟨.hbm, 127, rfl⟩
abbrev main_v98_1 : Ref sig .tc := ⟨.hbm, 128, rfl⟩
abbrev main_cst_8 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_9 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128_0 : Ref sig .tc := ⟨.hbm, 160, rfl⟩
abbrev main_v128_1 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg9_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg9_1 : Ref sig .tc := ⟨.vmem, 59, rfl⟩
abbrev cc4_stg10_0 : Ref sig .tc := ⟨.vmem, 60, rfl⟩
abbrev cc4_stg10_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc2_sem9_0 : DmaSem sig := 36
abbrev cc2_sem9_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem9_1 : DmaSem sig := 59
abbrev cc4_sem10_0 : DmaSem sig := 60
abbrev cc4_sem10_1 : DmaSem sig := 61

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4096x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S4096x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4096x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S32x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S32x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S32x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  shapeCasts_S256x128x128_S32768x128 : S256x128x128.ShapeCasts S32768x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  slices_S2x256x256_S1x256x256_0_0_0 : S2x256x256.Slices ![0, 0, 0] S1x256x256
  shapeCasts_S1x256x256_S256x256 : S1x256x256.ShapeCasts S256x256
  slices_S256x256_S256x128_0_0 : S256x256.Slices ![0, 0] S256x128
  transposes_S256x128_S128x256_1_0 : S256x128.Transposes [1, 0] S128x256
  slices_S256x256_S256x128_0_128 : S256x256.Slices ![0, 128] S256x128
  slices_S2x256_S1x256_0_0 : S2x256.Slices ![0, 0] S1x256
  shapeCasts_S1x256_S256 : S1x256.ShapeCasts S256
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  bcast_S_S32768x256 : S_.BroadcastsInDim S32768x256 (![] : Fin 0 → Fin S32768x256.rank)
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S2x384_S1x384_0_0 : S2x384.Slices ![0, 0] S1x384
  shapeCasts_S1x384_S384 : S1x384.ShapeCasts S384
  shapeCasts_S384_S1x384 : S384.ShapeCasts S1x384
  shapeCasts_S4096x256_S4096x256 : S4096x256.ShapeCasts S4096x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  slices_S2x256x256_S1x256x256_1_0_0 : S2x256x256.Slices ![1, 0, 0] S1x256x256
  slices_S2x256_S1x256_1_0 : S2x256.Slices ![1, 0] S1x256
  slices_S2x384x256_S1x384x256_1_0_0 : S2x384x256.Slices ![1, 0, 0] S1x384x256
  slices_S2x384x128_S1x384x128_1_0_0 : S2x384x128.Slices ![1, 0, 0] S1x384x128
  slices_S2x384_S1x384_1_0 : S2x384.Slices ![1, 0] S1x384
  reduces_S4096x128_S4096 : S4096x128.Reduces [1] S4096
  shapeCasts_S4096_S4096x1 : S4096.ShapeCasts S4096x1
  broadcasts_S4096x1_S4096x128 : S4096x1.Broadcasts S4096x128
  transposes_S128x128_S128x128_1_0 : S128x128.Transposes [1, 0] S128x128
  transposes_S1x128_S128x1_1_0 : S1x128.Transposes [1, 0] S128x1
  shapeCasts_S32768x128_S256x128x128 : S32768x128.ShapeCasts S256x128x128
  shapeCasts_S128_S1x128 : S128.ShapeCasts S1x128
  shapeCasts_S1_S1x1 : S1.ShapeCasts S1x1
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  shapeCasts_S32x128x128_S4096x128 : S32x128x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x128_S32x128x128 : S4096x128.ShapeCasts S32x128x128
  reduces_S32x128x128_S32x128 : S32x128x128.Reduces [1] S32x128
  reduces_S32x128_S32 : S32x128.Reduces [1] S32
  shapeCasts_S32_S32x1 : S32.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  gather_S32768x128_S262144x1_S262144x128_1_0_n_n_0_1_1128_wf : GatherDims.WF S32768x128 S262144x1 S262144x128 [1] [0] [] [0] [] 1 ![1, 128]
  dot_S4096x128_S128x256_S4096x256_1_0_0_1_n_n_wf : DotDims.WF S4096x128 S128x256 S4096x256 [1] [0] [0] [1] [] []
  scatter_S32768x256_S262144x1_S262144x256_1_0_0_1_wf : ScatterDims.WF S32768x256 S262144x1 S262144x256 [1] [0] [0] 1
  dot_S4096x256_S256x384_S4096x384_1_0_0_1_n_n_wf : DotDims.WF S4096x256 S256x384 S4096x384 [1] [0] [0] [1] [] []
  dot_S4096x128_S128x384_S4096x384_1_0_0_1_n_n_wf : DotDims.WF S4096x128 S128x384 S4096x384 [1] [0] [0] [1] [] []
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S262144x256.size a
  hwx0_8 : ∀ i : grid0.Coords, EltTy.bits .f32 = 32 ∨ (Rect.block (s := S262144x256) S4096x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x256.size a ≤ S262144x256.size a
  hwx0_9 : ∀ i : grid0.Coords, EltTy.bits .f32 = 32 ∨ (Rect.block (s := S262144x256) S4096x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S32768x256.size a
  hwx1_0 : ∀ i : grid1.Coords, EltTy.bits .f32 = 32 ∨ (Rect.block (s := S32768x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S32768x128.size a
  hwx1_1 : ∀ i : grid1.Coords, EltTy.bits .f32 = 32 ∨ (Rect.block (s := S32768x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x384.size a ≤ S256x384.size a
  hwx1_2 : ∀ i : grid1.Coords, EltTy.bits .f32 = 32 ∨ (Rect.block (s := S256x384) S256x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S32768x128.size a
  hwx1_6 : ∀ i : grid1.Coords, EltTy.bits .f32 = 32 ∨ (Rect.block (s := S32768x128) S4096x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S262144x128.size a
  hwx2_0 : ∀ i : grid2.Coords, EltTy.bits .f32 = 32 ∨ (Rect.block (s := S262144x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S262144x128.size a
  hwx2_1 : ∀ i : grid2.Coords, EltTy.bits .f32 = 32 ∨ (Rect.block (s := S262144x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4096x256.size a ≤ S262144x256.size a
  hwx2_8 : ∀ i : grid2.Coords, EltTy.bits .f32 = 32 ∨ (Rect.block (s := S262144x256) S4096x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4096x256.size a ≤ S262144x256.size a
  hwx2_9 : ∀ i : grid2.Coords, EltTy.bits .f32 = 32 ∨ (Rect.block (s := S262144x256) S4096x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S32768x256.size a
  hwx3_0 : ∀ i : grid3.Coords, EltTy.bits .f32 = 32 ∨ (Rect.block (s := S32768x256) S4096x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S32768x128.size a
  hwx3_1 : ∀ i : grid3.Coords, EltTy.bits .f32 = 32 ∨ (Rect.block (s := S32768x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x384.size a ≤ S256x384.size a
  hwx3_2 : ∀ i : grid3.Coords, EltTy.bits .f32 = 32 ∨ (Rect.block (s := S256x384) S256x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x128.size a ≤ S32768x128.size a
  hwx3_6 : ∀ i : grid3.Coords, EltTy.bits .f32 = 32 ∨ (Rect.block (s := S32768x128) S4096x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x128x128.size a ≤ S256x128x128.size a
  hwx4_0 : ∀ i : grid4.Coords, EltTy.bits .f32 = 32 ∨ (Rect.block (s := S256x128x128) S32x128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x1.size a ≤ S128x1.size a
  hwx4_7 : ∀ i : grid4.Coords, EltTy.bits .f32 = 32 ∨ (Rect.block (s := S128x1) S128x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S32x128.size a ≤ S256x128.size a
  hwx4_9 : ∀ i : grid4.Coords, EltTy.bits .f32 = 32 ∨ (Rect.block (s := S256x128) S32x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S32x128.size a ≤ S256x128.size a
  hwx4_10 : ∀ i : grid4.Coords, EltTy.bits .f32 = 32 ∨ (Rect.block (s := S256x128) S32x128.size (cc4_transform_10 i) (hinb4_10 i)).WholeWords (EltTy.packing .f32)

variable [Facts₀]

def gather_S32768x128_S262144x1_S262144x128_1_0_n_n_0_1_1128 : GatherDims S32768x128 S262144x1 S262144x128 where
  offsetDims := [1]
  collapsedSliceDims := [0]
  operandBatchingDims := []
  startIndicesBatchingDims := []
  startIndexMap := [0]
  indexVectorDim := 1
  sliceSizes := ![1, 128]
  wf := gather_S32768x128_S262144x1_S262144x128_1_0_n_n_0_1_1128_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def scatter_S32768x256_S262144x1_S262144x256_1_0_0_1 : ScatterDims S32768x256 S262144x1 S262144x256 where
  updateWindowDims := [1]
  insertedWindowDims := [0]
  scatterDimsToOperandDims := [0]
  indexVectorDim := 1
  wf := scatter_S32768x256_S262144x1_S262144x256_1_0_0_1_wf
def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_v11) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41_0) S4096x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v41_1) S4096x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v48) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S256x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S4096x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v68) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v96) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v97) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v98_0) S4096x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v98_1) S4096x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v105) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v108) S256x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v111) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v116) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v118) S4096x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v123) S32x128x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v119) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v124) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v120) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v125) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v121) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v126) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v122) S128x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v127) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v128_0) S32x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v128_1) S32x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S256x128x128 : Shape := ⟨3, ![256, 128, 128]⟩
abbrev S2x262144 : Shape := ⟨2, ![2, 262144]⟩
abbrev S2x256x256 : Shape := ⟨3, ![2, 256, 256]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S32768x128 : Shape := ⟨2, ![32768, 128]⟩
abbrev S1x262144 : Shape := ⟨2, ![1, 262144]⟩
abbrev S262144 : Shape := ⟨1, ![262144]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S262144x256 : Shape := ⟨2, ![262144, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S32768x256 : Shape := ⟨2, ![32768, 256]⟩
abbrev S1x384x256 : Shape := ⟨3, ![1, 384, 256]⟩
abbrev S384x256 : Shape := ⟨2, ![384, 256]⟩
abbrev S256x384 : Shape := ⟨2, ![256, 384]⟩
abbrev S32768x384 : Shape := ⟨2, ![32768, 384]⟩
abbrev S1x384 : Shape := ⟨2, ![1, 384]⟩
abbrev S384 : Shape := ⟨1, ![384]⟩
abbrev S1x384x128 : Shape := ⟨3, ![1, 384, 128]⟩
abbrev S384x128 : Shape := ⟨2, ![384, 128]⟩
abbrev S128x384 : Shape := ⟨2, ![128, 384]⟩
abbrev S32768 : Shape := ⟨1, ![32768]⟩
abbrev S32768x1 : Shape := ⟨2, ![32768, 1]⟩
abbrev S128x1 : Shape := ⟨2, ![128, 1]⟩
abbrev S1x1 : Shape := ⟨2, ![1, 1]⟩
abbrev S256x128 : Shape := ⟨2, ![256, 128]⟩
abbrev S256x1 : Shape := ⟨2, ![256, 1]⟩

abbrev nBuf : Space → Nat
  | .hbm => 296
  | .vmem => 0
  | .smem => 0
  | _ => 0

abbrev hbmTy0_0 (i : Nat) : BufTy := match i % 128 with
  | 0 => ⟨S256x128x128, .f32⟩
  | 1 => ⟨S2x262144, .i32⟩
  | 2 => ⟨S2x256x256, .f32⟩
  | 3 => ⟨S2x256, .f32⟩
  | 4 => ⟨S2x256x256, .f32⟩
  | 5 => ⟨S2x256, .f32⟩
  | 6 => ⟨S2x384x256, .f32⟩
  | 7 => ⟨S2x384x128, .f32⟩
  | 8 => ⟨S2x384, .f32⟩
  | 9 => ⟨S2x384, .f32⟩
  | 10 => ⟨S128x128, .f32⟩
  | 11 => ⟨S128, .f32⟩
  | 12 => ⟨S1x128, .f32⟩
  | 13 => ⟨S1, .f32⟩
  | 14 => ⟨S128x128, .f32⟩
  | 15 => ⟨S128, .f32⟩
  | 16 => ⟨S1x128, .f32⟩
  | 17 => ⟨S1, .f32⟩
  | 18 => ⟨S32768x128, .f32⟩
  | 19 => ⟨S1x262144, .i32⟩
  | 20 => ⟨S262144, .i32⟩
  | 21 => ⟨S1x262144, .i32⟩
  | 22 => ⟨S262144, .i32⟩
  | 23 => ⟨S524288, .i32⟩
  | 24 => ⟨S1x262144, .i32⟩
  | 25 => ⟨S262144, .i32⟩
  | 26 => ⟨S1x262144, .i32⟩
  | 27 => ⟨S262144, .i32⟩
  | 28 => ⟨S524288, .i32⟩
  | 29 => ⟨S_, .i32⟩
  | 30 => ⟨S524288, .i32⟩
  | 31 => ⟨S524288, .i1⟩
  | 32 => ⟨S_, .i32⟩
  | 33 => ⟨S524288, .i32⟩
  | 34 => ⟨S524288, .i32⟩
  | 35 => ⟨S524288, .i32⟩
  | 36 => ⟨S524288x1, .i32⟩
  | 37 => ⟨S524288x128, .f32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S524288x1, .i32⟩
  | 46 => ⟨S524288x128, .f32⟩
  | 47 => ⟨S524288x256, .f32⟩
  | 48 => ⟨S262144x256, .f32⟩
  | 49 => ⟨S1x256x256, .f32⟩
  | 50 => ⟨S256x256, .f32⟩
  | 51 => ⟨S256x256, .f32⟩
  | 52 => ⟨S262144x256, .f32⟩
  | 53 => ⟨S1x256, .f32⟩
  | 54 => ⟨S256, .f32⟩
  | 55 => ⟨S1x256, .f32⟩
  | 56 => ⟨S262144x256, .f32⟩
  | 57 => ⟨S262144x256, .f32⟩
  | 58 => ⟨S262144x256, .f32⟩
  | 59 => ⟨S1x256x256, .f32⟩
  | 60 => ⟨S256x256, .f32⟩
  | 61 => ⟨S256x256, .f32⟩
  | 62 => ⟨S262144x256, .f32⟩
  | 63 => ⟨S1x256, .f32⟩
  | 64 => ⟨S256, .f32⟩
  | 65 => ⟨S1x256, .f32⟩
  | 66 => ⟨S262144x256, .f32⟩
  | 67 => ⟨S262144x256, .f32⟩
  | 68 => ⟨S524288x256, .f32⟩
  | 69 => ⟨S_, .f32⟩
  | 70 => ⟨S32768x256, .f32⟩
  | 71 => ⟨S524288x1, .i32⟩
  | 72 => ⟨S32768x256, .f32⟩
  | 73 => ⟨S1x384x256, .f32⟩
  | 74 => ⟨S384x256, .f32⟩
  | 75 => ⟨S256x384, .f32⟩
  | 76 => ⟨S32768x384, .f32⟩
  | 77 => ⟨S1x384, .f32⟩
  | 78 => ⟨S384, .f32⟩
  | 79 => ⟨S1x384, .f32⟩
  | 80 => ⟨S32768x384, .f32⟩
  | 81 => ⟨S32768x384, .f32⟩
  | 82 => ⟨S1x384x128, .f32⟩
  | 83 => ⟨S384x128, .f32⟩
  | 84 => ⟨S128x384, .f32⟩
  | 85 => ⟨S32768x384, .f32⟩
  | 86 => ⟨S1x384, .f32⟩
  | 87 => ⟨S384, .f32⟩
  | 88 => ⟨S1x384, .f32⟩
  | 89 => ⟨S32768x384, .f32⟩
  | 90 => ⟨S32768x384, .f32⟩
  | 91 => ⟨S32768x128, .f32⟩
  | 92 => ⟨S32768x128, .f32⟩
  | 93 => ⟨S32768x128, .f32⟩
  | 94 => ⟨S32768x128, .f32⟩
  | 95 => ⟨S32768x128, .f32⟩
  | 96 => ⟨S32768x128, .f32⟩
  | 97 => ⟨S32768x128, .f32⟩
  | 98 => ⟨S32768x128, .f32⟩
  | 99 => ⟨S32768x128, .f32⟩
  | 100 => ⟨S_, .f32⟩
  | 101 => ⟨S32768x128, .f32⟩
  | 102 => ⟨S32768x128, .f32⟩
  | 103 => ⟨S_, .f32⟩
  | 104 => ⟨S32768x128, .f32⟩
  | 105 => ⟨S32768x128, .f32⟩
  | 106 => ⟨S32768x128, .f32⟩
  | 107 => ⟨S32768x128, .f32⟩
  | 108 => ⟨S32768x128, .f32⟩
  | 109 => ⟨S_, .f32⟩
  | 110 => ⟨S32768x128, .f32⟩
  | 111 => ⟨S32768x128, .f32⟩
  | 112 => ⟨S_, .f32⟩
  | 113 => ⟨S32768x128, .f32⟩
  | 114 => ⟨S32768x128, .f32⟩
  | 115 => ⟨S32768x128, .f32⟩
  | 116 => ⟨S32768x128, .f32⟩
  | 117 => ⟨S32768x128, .f32⟩
  | 118 => ⟨S_, .f32⟩
  | 119 => ⟨S32768x128, .f32⟩
  | 120 => ⟨S32768x128, .f32⟩
  | 121 => ⟨S32768x128, .f32⟩
  | 122 => ⟨S32768x128, .f32⟩
  | 123 => ⟨S32768x128, .f32⟩
  | 124 => ⟨S_, .i32⟩
  | 125 => ⟨S524288, .i32⟩
  | 126 => ⟨S524288, .i1⟩
  | 127 => ⟨S_, .i32⟩
  | _ => ⟨S256x128x128, .f32⟩

abbrev hbmTy0_1 (i : Nat) : BufTy := match i % 128 with
  | 0 => ⟨S524288, .i32⟩
  | 1 => ⟨S524288, .i32⟩
  | 2 => ⟨S524288, .i32⟩
  | 3 => ⟨S524288x1, .i32⟩
  | 4 => ⟨S524288x128, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S524288x128, .f32⟩
  | 14 => ⟨S524288x256, .f32⟩
  | 15 => ⟨S262144x256, .f32⟩
  | 16 => ⟨S1x256x256, .f32⟩
  | 17 => ⟨S256x256, .f32⟩
  | 18 => ⟨S256x256, .f32⟩
  | 19 => ⟨S262144x256, .f32⟩
  | 20 => ⟨S1x256, .f32⟩
  | 21 => ⟨S256, .f32⟩
  | 22 => ⟨S1x256, .f32⟩
  | 23 => ⟨S262144x256, .f32⟩
  | 24 => ⟨S262144x256, .f32⟩
  | 25 => ⟨S262144x256, .f32⟩
  | 26 => ⟨S1x256x256, .f32⟩
  | 27 => ⟨S256x256, .f32⟩
  | 28 => ⟨S256x256, .f32⟩
  | 29 => ⟨S262144x256, .f32⟩
  | 30 => ⟨S1x256, .f32⟩
  | 31 => ⟨S256, .f32⟩
  | 32 => ⟨S1x256, .f32⟩
  | 33 => ⟨S262144x256, .f32⟩
  | 34 => ⟨S262144x256, .f32⟩
  | 35 => ⟨S524288x256, .f32⟩
  | 36 => ⟨S_, .f32⟩
  | 37 => ⟨S32768x256, .f32⟩
  | 38 => ⟨S524288x1, .i32⟩
  | 39 => ⟨S32768x256, .f32⟩
  | 40 => ⟨S1x384x256, .f32⟩
  | 41 => ⟨S384x256, .f32⟩
  | 42 => ⟨S256x384, .f32⟩
  | 43 => ⟨S32768x384, .f32⟩
  | 44 => ⟨S1x384, .f32⟩
  | 45 => ⟨S384, .f32⟩
  | 46 => ⟨S1x384, .f32⟩
  | 47 => ⟨S32768x384, .f32⟩
  | 48 => ⟨S32768x384, .f32⟩
  | 49 => ⟨S1x384x128, .f32⟩
  | 50 => ⟨S384x128, .f32⟩
  | 51 => ⟨S128x384, .f32⟩
  | 52 => ⟨S32768x384, .f32⟩
  | 53 => ⟨S1x384, .f32⟩
  | 54 => ⟨S384, .f32⟩
  | 55 => ⟨S1x384, .f32⟩
  | 56 => ⟨S32768x384, .f32⟩
  | 57 => ⟨S32768x384, .f32⟩
  | 58 => ⟨S32768x128, .f32⟩
  | 59 => ⟨S32768x128, .f32⟩
  | 60 => ⟨S32768x128, .f32⟩
  | 61 => ⟨S32768x128, .f32⟩
  | 62 => ⟨S32768x128, .f32⟩
  | 63 => ⟨S32768x128, .f32⟩
  | 64 => ⟨S32768x128, .f32⟩
  | 65 => ⟨S32768x128, .f32⟩
  | 66 => ⟨S32768x128, .f32⟩
  | 67 => ⟨S_, .f32⟩
  | 68 => ⟨S32768x128, .f32⟩
  | 69 => ⟨S32768x128, .f32⟩
  | 70 => ⟨S_, .f32⟩
  | 71 => ⟨S32768x128, .f32⟩
  | 72 => ⟨S32768x128, .f32⟩
  | 73 => ⟨S32768x128, .f32⟩
  | 74 => ⟨S32768x128, .f32⟩
  | 75 => ⟨S32768x128, .f32⟩
  | 76 => ⟨S_, .f32⟩
  | 77 => ⟨S32768x128, .f32⟩
  | 78 => ⟨S32768x128, .f32⟩
  | 79 => ⟨S_, .f32⟩
  | 80 => ⟨S32768x128, .f32⟩
  | 81 => ⟨S32768x128, .f32⟩
  | 82 => ⟨S32768x128, .f32⟩
  | 83 => ⟨S32768x128, .f32⟩
  | 84 => ⟨S32768x128, .f32⟩
  | 85 => ⟨S_, .f32⟩
  | 86 => ⟨S32768x128, .f32⟩
  | 87 => ⟨S32768x128, .f32⟩
  | 88 => ⟨S32768x128, .f32⟩
  | 89 => ⟨S32768x128, .f32⟩
  | 90 => ⟨S32768x128, .f32⟩
  | 91 => ⟨S32768x128, .f32⟩
  | 92 => ⟨S_, .f32⟩
  | 93 => ⟨S32768, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S32768x128, .f32⟩
  | 100 => ⟨S32768x128, .f32⟩
  | 101 => ⟨S128x128, .f32⟩
  | 102 => ⟨S32768x128, .f32⟩
  | 103 => ⟨S1x128, .f32⟩
  | 104 => ⟨S32768x128, .f32⟩
  | 105 => ⟨S32768x128, .f32⟩
  | 106 => ⟨S128x1, .f32⟩
  | 107 => ⟨S32768x1, .f32⟩
  | 108 => ⟨S1x1, .f32⟩
  | 109 => ⟨S32768x1, .f32⟩
  | 110 => ⟨S32768x1, .f32⟩
  | 111 => ⟨S32768x1, .f32⟩
  | 112 => ⟨S32768x1, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x128, .f32⟩
  | 120 => ⟨S32768x128, .f32⟩
  | 121 => ⟨S256x128x128, .f32⟩
  | 122 => ⟨S_, .f32⟩
  | 123 => ⟨S256x128, .f32⟩
  | 124 => ⟨S256x128, .f32⟩
  | 125 => ⟨S_, .f32⟩
  | 126 => ⟨S256, .f32⟩
  | 127 => ⟨S256x1, .f32⟩
  | _ => ⟨S256x128x128, .f32⟩

abbrev hbmTy0_2 (i : Nat) : BufTy := match i % 128 with
  | 0 => ⟨S256x1, .f32⟩
  | 1 => ⟨S_, .f32⟩
  | 2 => ⟨S256x1, .f32⟩
  | 3 => ⟨S256x1, .f32⟩
  | 4 => ⟨S256x128, .f32⟩
  | 5 => ⟨S256x128, .f32⟩
  | 6 => ⟨S128x128, .f32⟩
  | 7 => ⟨S32768x128, .f32⟩
  | 8 => ⟨S1x128, .f32⟩
  | 9 => ⟨S32768x128, .f32⟩
  | 10 => ⟨S32768x128, .f32⟩
  | 11 => ⟨S128x1, .f32⟩
  | 12 => ⟨S32768x1, .f32⟩
  | 13 => ⟨S1x1, .f32⟩
  | 14 => ⟨S32768x1, .f32⟩
  | 15 => ⟨S32768x1, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x128, .f32⟩
  | 25 => ⟨S32768x128, .f32⟩
  | 26 => ⟨S256x128x128, .f32⟩
  | 27 => ⟨S_, .f32⟩
  | 28 => ⟨S256x128, .f32⟩
  | 29 => ⟨S256x128, .f32⟩
  | 30 => ⟨S_, .f32⟩
  | 31 => ⟨S256, .f32⟩
  | 32 => ⟨S256x1, .f32⟩
  | 33 => ⟨S256x1, .f32⟩
  | 34 => ⟨S_, .f32⟩
  | 35 => ⟨S256x1, .f32⟩
  | 36 => ⟨S256x1, .f32⟩
  | 37 => ⟨S256x128, .f32⟩
  | 38 => ⟨S256x128, .f32⟩
  | 39 => ⟨S256x128x128, .f32⟩
  | _ => ⟨S256x128x128, .f32⟩

abbrev hbmTy (i : Nat) : BufTy := match i / 128 with
  | 0 => hbmTy0_0 i
  | 1 => hbmTy0_1 i
  | 2 => hbmTy0_2 i
  | _ => ⟨S256x128x128, .f32⟩

abbrev bufTy : (tb : Table) → Fin (tcTables nBuf tb) → BufTy
  | .hbm, ⟨i, _⟩ => hbmTy i
  | _, _ => ⟨S256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_3 : Ref sig .tc := ⟨.hbm, 100, rfl⟩
abbrev main_v77 : Ref sig .tc := ⟨.hbm, 101, rfl⟩
abbrev main_v78 : Ref sig .tc := ⟨.hbm, 102, rfl⟩
abbrev main_cst_4 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_5 : Ref sig .tc := ⟨.hbm, 109, rfl⟩
abbrev main_v84 : Ref sig .tc := ⟨.hbm, 110, rfl⟩
abbrev main_v85 : Ref sig .tc := ⟨.hbm, 111, rfl⟩
abbrev main_cst_6 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_7 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_8 : Ref sig .tc := ⟨.hbm, 124, rfl⟩
abbrev main_v96 : Ref sig .tc := ⟨.hbm, 125, rfl⟩
abbrev main_v97 : Ref sig .tc := ⟨.hbm, 126, rfl⟩
abbrev main_c_9 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_c_10 : Ref sig .tc := ⟨.hbm, 133, rfl⟩
abbrev main_v103 : Ref sig .tc := ⟨.hbm, 134, rfl⟩
abbrev main_v104 : Ref sig .tc := ⟨.hbm, 135, rfl⟩
abbrev main_c_11 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_12 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_13 : Ref sig .tc := ⟨.hbm, 195, rfl⟩
abbrev main_v162 : Ref sig .tc := ⟨.hbm, 196, rfl⟩
abbrev main_v163 : Ref sig .tc := ⟨.hbm, 197, rfl⟩
abbrev main_cst_14 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_cst_15 : Ref sig .tc := ⟨.hbm, 204, rfl⟩
abbrev main_v169 : Ref sig .tc := ⟨.hbm, 205, rfl⟩
abbrev main_v170 : Ref sig .tc := ⟨.hbm, 206, rfl⟩
abbrev main_cst_16 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_17 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_call0_v0 : Ref sig .tc := ⟨.hbm, 219, rfl⟩
abbrev main_call0_cst : Ref sig .tc := ⟨.hbm, 220, rfl⟩
abbrev main_call0_v1 : Ref sig .tc := ⟨.hbm, 221, rfl⟩
abbrev main_call0_v2 : Ref sig .tc := ⟨.hbm, 222, rfl⟩
abbrev main_v181 : Ref sig .tc := ⟨.hbm, 223, rfl⟩
abbrev main_cst_18 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_cst_19 : Ref sig .tc := ⟨.hbm, 241, rfl⟩
abbrev main_v198 : Ref sig .tc := ⟨.hbm, 242, rfl⟩
abbrev main_v199 : Ref sig .tc := ⟨.hbm, 243, rfl⟩
abbrev main_cst_20 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_cst_21 : Ref sig .tc := ⟨.hbm, 250, rfl⟩
abbrev main_v205 : Ref sig .tc := ⟨.hbm, 251, rfl⟩
abbrev main_call1_v0 : Ref sig .tc := ⟨.hbm, 252, rfl⟩
abbrev main_call1_cst : Ref sig .tc := ⟨.hbm, 253, rfl⟩
abbrev main_call1_v1 : Ref sig .tc := ⟨.hbm, 254, rfl⟩
abbrev main_call1_v2 : Ref sig .tc := ⟨.hbm, 255, rfl⟩
abbrev main_v206 : Ref sig .tc := ⟨.hbm, 256, rfl⟩
abbrev main_cst_22 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_cst_23 : Ref sig .tc := ⟨.hbm, 274, rfl⟩
abbrev main_v223 : Ref sig .tc := ⟨.hbm, 275, rfl⟩
abbrev main_v224 : Ref sig .tc := ⟨.hbm, 276, rfl⟩
abbrev main_cst_24 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_25 : Ref sig .tc := ⟨.hbm, 283, rfl⟩
abbrev main_v230 : Ref sig .tc := ⟨.hbm, 284, rfl⟩
abbrev main_call2_v0 : Ref sig .tc := ⟨.hbm, 285, rfl⟩
abbrev main_call2_cst : Ref sig .tc := ⟨.hbm, 286, rfl⟩
abbrev main_call2_v1 : Ref sig .tc := ⟨.hbm, 287, rfl⟩
abbrev main_call2_v2 : Ref sig .tc := ⟨.hbm, 288, rfl⟩
abbrev main_v231 : Ref sig .tc := ⟨.hbm, 289, rfl⟩
abbrev main_cst_26 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩

abbrev nD : Nat := 1
abbrev τ : Topo := Topo.v7x

variable {F : FTy → Type} [FloatOps F]

class Facts₀ : Prop where
  shapeCasts_S256x128x128_S32768x128 : S256x128x128.ShapeCasts S32768x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S262144_S524288_d0 : Shape.Concatenates [S262144, S262144] S524288 0
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  slices_S524288x256_S262144x256_0_0 : S524288x256.Slices ![0, 0] S262144x256
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S524288x256_S262144x256_262144_0 : S524288x256.Slices ![262144, 0] S262144x256
  concatenates_S262144x256_S262144x256_S524288x256_d0 : Shape.Concatenates [S262144x256, S262144x256] S524288x256 0
  bcast_S_S32768x256 : S_.BroadcastsInDim S32768x256 (![] : Fin 0 → Fin S32768x256.rank)
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S32768x384_0_1 : S1x384.BroadcastsInDim S32768x384 (![0, 1] : Fin 2 → Fin S32768x384.rank)
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S32768x384_S32768x128_0_0 : S32768x384.Slices ![0, 0] S32768x128
  slices_S32768x384_S32768x128_0_128 : S32768x384.Slices ![0, 128] S32768x128
  slices_S32768x384_S32768x128_0_256 : S32768x384.Slices ![0, 256] S32768x128
  bcast_S_S32768x128 : S_.BroadcastsInDim S32768x128 (![] : Fin 0 → Fin S32768x128.rank)
  slices_S2x256x256_S1x256x256_1_0_0 : S2x256x256.Slices ![1, 0, 0] S1x256x256
  slices_S2x256_S1x256_1_0 : S2x256.Slices ![1, 0] S1x256
  slices_S2x384x256_S1x384x256_1_0_0 : S2x384x256.Slices ![1, 0, 0] S1x384x256
  slices_S2x384_S1x384_1_0 : S2x384.Slices ![1, 0] S1x384
  slices_S2x384x128_S1x384x128_1_0_0 : S2x384x128.Slices ![1, 0, 0] S1x384x128
  reducesTo_S32768x128_S32768_d1 : S32768x128.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x128_0_1 : S32768x1.BroadcastsInDim S32768x128 (![0, 1] : Fin 2 → Fin S32768x128.rank)
  transposes_S128x128_S128x128_1_0 : S128x128.Transposes [1, 0] S128x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  transposes_S1x128_S128x1_1_0 : S1x128.Transposes [1, 0] S128x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x128_S256x128x128 : S32768x128.ShapeCasts S256x128x128
  reducesTo_S256x128x128_S256x128_d1 : S256x128x128.ReducesTo [1] S256x128
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  gather_S32768x128_S524288x1_S524288x128_1_0_n_n_0_1_1128_wf : GatherDims.WF S32768x128 S524288x1 S524288x128 [1] [0] [] [0] [] 1 ![1, 128]
  dot_S262144x256_S256x256_S262144x256_1_0_0_1_n_n_wf : DotDims.WF S262144x256 S256x256 S262144x256 [1] [0] [0] [1] [] []
  scatter_S32768x256_S524288x1_S524288x256_1_0_0_1_wf : ScatterDims.WF S32768x256 S524288x1 S524288x256 [1] [0] [0] 1
  dot_S32768x256_S256x384_S32768x384_1_0_0_1_n_n_wf : DotDims.WF S32768x256 S256x384 S32768x384 [1] [0] [0] [1] [] []
  dot_S32768x128_S128x384_S32768x384_1_0_0_1_n_n_wf : DotDims.WF S32768x128 S128x384 S32768x384 [1] [0] [0] [1] [] []
  dot_S32768x128_S128x128_S32768x128_1_0_0_1_n_n_wf : DotDims.WF S32768x128 S128x128 S32768x128 [1] [0] [0] [1] [] []
  dot_S32768x128_S128x1_S32768x1_1_0_0_1_n_n_wf : DotDims.WF S32768x128 S128x1 S32768x1 [1] [0] [0] [1] [] []

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S32768x256_S256x384_S32768x384_1_0_0_1_n_n : DotDims S32768x256 S256x384 S32768x384 where
  lhsContracting := [1]
  rhsContracting := [0]
  lhsNonContracting := [0]
  rhsNonContracting := [1]
  lhsBatch := []
  rhsBatch := []
  wf := dot_S32768x256_S256x384_S32768x384_1_0_0_1_n_n_wf
def dot_S32768x128_S128x384_S32768x384_1_0_0_1_n_n : DotDims S32768x128 S128x384 S32768x384 where
  lhsContracting := [1]
  rhsContracting := [0]
  lhsNonContracting := [0]
  rhsNonContracting := [1]
  lhsBatch := []
  rhsBatch := []
  wf := dot_S32768x128_S128x384_S32768x384_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x128_S128x1_S32768x1_1_0_0_1_n_n : DotDims S32768x128 S128x1 S32768x1 where
  lhsContracting := [1]
  rhsContracting := [0]
  lhsNonContracting := [0]
  rhsNonContracting := [1]
  lhsBatch := []
  rhsBatch := []
  wf := dot_S32768x128_S128x1_S32768x1_1_0_0_1_n_n_wf

class Facts : Prop extends Facts₀ where

variable [Facts]
-- ==== Proof.LibHostRead.lean ====
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer that an earlier operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- In a fresh line nothing after operation `p` touches its buffers: they hold after the whole line what they held right after `p`. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/-- Hence an operation's result after the whole line is its function of its operands after the whole line; one lemma per arity, the operation named by its number `p`. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

end Cert.HostRead

end
-- ==== Proof.LibHostRank.lean ====
import proofs.«181595_j41618233098847_1_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it: a check linear in the line. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- Rankings join along a concatenation. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below the line's first rank is never written. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A later operation's results outrank everything an earlier one touches, so a ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RStages0.lean ====
import proofs.«181595_j41618233098847_1_alg».proof.Proof.RRun
import proofs.«181595_j41618233098847_1_alg».proof.Proof.LibHostRank
import Idealize.ShloMosaic.PureOps.Ideal

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.HostRead

/-- A buffer's rank is its index in the buffer table: the 18 arguments first, then the results in program order. -/
def rk : DevRef τ sig → Nat := fun b => b.idx.val

theorem ranked0 : Ranked rk 18 (ops0 (F := Ideal)) := by decide +kernel
theorem ranked1 : Ranked rk 78 (ops1 (F := Ideal)) := by decide +kernel
theorem ranked2 : Ranked rk 138 (ops2 (F := Ideal)) := by decide +kernel
theorem ranked3 : Ranked rk 198 (ops3 (F := Ideal)) := by decide +kernel
theorem ranked4 : Ranked rk 266 (ops4 (F := Ideal)) := by decide +kernel

/-- Operation number p writes buffer number 18 + p and reads only earlier buffers. -/
theorem ranked : Ranked rk 18 (ops (F := Ideal)) :=
  Ranked.append rk _ _ _ ranked0 (Ranked.append rk _ _ _ ranked1 (Ranked.append rk _ _ _ ranked2 (Ranked.append rk _ _ _ ranked3 ranked4)))

theorem fresh : Fresh (ops (F := Ideal)) := Ranked.fresh rk 18 _ ranked

variable (V : Valuation τ sig (Elt Ideal))

/-- What buffer `b` holds after the whole line. -/
def fin (b : Ref sig .tc) := after (ops (F := Ideal)) V (Proc.devRef .tc b)

/-- What buffer `b` holds at the launch. -/
def arg (b : Ref sig .tc) := V (Proc.devRef .tc b)

/-- An argument ranks below every result, so no operation writes it. -/
theorem st_arg (b : Ref sig .tc) (hb : rk (Proc.devRef (τ := τ) .tc b) < 18 := by decide) : fin V b = arg V b :=
  Ranked.after_of_lt rk 18 _ ranked V _ hb

variable {V}

/-- Operation number `p`, found by computation, read at its result: its function of what its operands hold after the whole line. -/
theorem rd0 {y v hy} (p : Nat) (hop : (ops (F := Ideal))[p]? = some (nullary y v hy)) : fin V y = v := by
  obtain ⟨hp, h⟩ := List.getElem?_eq_some_iff.mp hop
  exact read_nullary fresh p hy hp h

theorem rd1 {x y f hx hy} (p : Nat) (hop : (ops (F := Ideal))[p]? = some (unary x y f hx hy)) (hxy : x ≠ y := by decide) :
    fin V y = f (fin V x) := by
  obtain ⟨hp, h⟩ := List.getElem?_eq_some_iff.mp hop
  exact read_unary fresh p hx hy hp h hxy

theorem rdr {x y he hn hx hy} (p : Nat) (hop : (ops (F := Ideal))[p]? = some (reshape x y he hn hx hy)) (hxy : x ≠ y := by decide) :
    fin V y = fun i => he ▸ shapeCast y.ty.shape (fin V x) hn i := by
  obtain ⟨hp, h⟩ := List.getElem?_eq_some_iff.mp hop
  exact read_reshape fresh p he hn hx hy hp h hxy

theorem rd2 {a b y f ha hb hy} (p : Nat) (hop : (ops (F := Ideal))[p]? = some (binary a b y f ha hb hy))
    (hay : a ≠ y := by decide) (hby : b ≠ y := by decide) : fin V y = f (fin V a) (fin V b) := by
  obtain ⟨hp, h⟩ := List.getElem?_eq_some_iff.mp hop
  exact read_binary fresh p ha hb hy hp h hay hby

theorem rd3 {c a b y f hc ha hb hy} (p : Nat) (hop : (ops (F := Ideal))[p]? = some (ternary c a b y f hc ha hb hy))
    (hcy : c ≠ y := by decide) (hay : a ≠ y := by decide) (hby : b ≠ y := by decide) :
    fin V y = f (fin V c) (fin V a) (fin V b) := by
  obtain ⟨hp, h⟩ := List.getElem?_eq_some_iff.mp hop
  exact read_ternary fresh p hc ha hb hy hp h hcy hay hby

end Cert.ReferenceIdeal.Stages

end
-- ==== Proof.RStages1.lean ====
import proofs.«181595_j41618233098847_1_alg».proof.Proof.RStages0
import proofs.«181595_j41618233098847_1_alg».proof.Proof.RRead

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP Cert.HostRead

variable (V : Valuation τ sig (Elt Ideal))

theorem st_main_v0 : fin V main_v0 = val_main_v0 (F := Ideal) (arg V main_arg0) := by
  rw [rdr 0 rfl, st_arg V main_arg0]; rfl
theorem st_main_v1 : fin V main_v1 = val_main_v1 (F := Ideal) (arg V main_arg1) := by
  rw [rd1 1 rfl, st_arg V main_arg1]; rfl
theorem st_main_v2 : fin V main_v2 = val_main_v2 (F := Ideal) (arg V main_arg1) := by
  rw [rdr 2 rfl, st_main_v1 V]; rfl
theorem st_main_v3 : fin V main_v3 = val_main_v3 (F := Ideal) (arg V main_arg1) := by
  rw [rd1 3 rfl, st_arg V main_arg1]; rfl
theorem st_main_v4 : fin V main_v4 = val_main_v4 (F := Ideal) (arg V main_arg1) := by
  rw [rdr 4 rfl, st_main_v3 V]; rfl
theorem st_main_v5 : fin V main_v5 = val_main_v5 (F := Ideal) (arg V main_arg1) := by
  rw [rd2 5 rfl, st_main_v2 V, st_main_v4 V]; rfl
theorem st_main_v6 : fin V main_v6 = val_main_v6 (F := Ideal) (arg V main_arg1) := by
  rw [rd1 6 rfl, st_arg V main_arg1]; rfl
theorem st_main_v7 : fin V main_v7 = val_main_v7 (F := Ideal) (arg V main_arg1) := by
  rw [rdr 7 rfl, st_main_v6 V]; rfl
theorem st_main_v8 : fin V main_v8 = val_main_v8 (F := Ideal) (arg V main_arg1) := by
  rw [rd1 8 rfl, st_arg V main_arg1]; rfl
theorem st_main_v9 : fin V main_v9 = val_main_v9 (F := Ideal) (arg V main_arg1) := by
  rw [rdr 9 rfl, st_main_v8 V]; rfl
theorem st_main_v10 : fin V main_v10 = val_main_v10 (F := Ideal) (arg V main_arg1) := by
  rw [rd2 10 rfl, st_main_v7 V, st_main_v9 V]; rfl
theorem st_main_c : fin V main_c = val_main_c (F := Ideal) := by
  rw [rd0 11 rfl]; rfl
theorem st_main_v11 : fin V main_v11 = val_main_v11 (F := Ideal) := by
  rw [rd1 12 rfl, st_main_c V]; rfl
theorem st_main_v12 : fin V main_v12 = val_main_v12 (F := Ideal) (arg V main_arg1) := by
  rw [rd2 13 rfl, st_main_v5 V, st_main_v11 V]; rfl
theorem st_main_c_0 : fin V main_c_0 = val_main_c_0 (F := Ideal) := by
  rw [rd0 14 rfl]; rfl
theorem st_main_v13 : fin V main_v13 = val_main_v13 (F := Ideal) := by
  rw [rd1 15 rfl, st_main_c_0 V]; rfl
theorem st_main_v14 : fin V main_v14 = val_main_v14 (F := Ideal) (arg V main_arg1) := by
  rw [rd2 16 rfl, st_main_v5 V, st_main_v13 V]; rfl
theorem st_main_v15 : fin V main_v15 = val_main_v15 (F := Ideal) (arg V main_arg1) := by
  rw [rd3 17 rfl, st_main_v12 V, st_main_v14 V, st_main_v5 V]; rfl
theorem st_main_v16 : fin V main_v16 = val_main_v16 (F := Ideal) (arg V main_arg1) := by
  rw [rd1 18 rfl, st_main_v15 V]; rfl
theorem st_main_v17 : fin V main_v17 = val_main_v17 (F := Ideal) (arg V main_arg0) (arg V main_arg1) := by
  rw [rd2 19 rfl, st_main_v0 V, st_main_v16 V]; rfl
theorem st_main_c_1 : fin V main_c_1 = val_main_c_1 (F := Ideal) := by
  rw [rd0 20 rfl]; rfl
theorem st_main_v18 : fin V main_v18 = val_main_v18 (F := Ideal) := by
  rw [rd1 21 rfl, st_main_c_1 V]; rfl
theorem st_main_v19 : fin V main_v19 = val_main_v19 (F := Ideal) (arg V main_arg1) := by
  rw [rd2 22 rfl, st_main_v10 V, st_main_v18 V]; rfl
theorem st_main_c_2 : fin V main_c_2 = val_main_c_2 (F := Ideal) := by
  rw [rd0 23 rfl]; rfl
theorem st_main_v20 : fin V main_v20 = val_main_v20 (F := Ideal) := by
  rw [rd1 24 rfl, st_main_c_2 V]; rfl
theorem st_main_v21 : fin V main_v21 = val_main_v21 (F := Ideal) (arg V main_arg1) := by
  rw [rd2 25 rfl, st_main_v10 V, st_main_v20 V]; rfl
theorem st_main_v22 : fin V main_v22 = val_main_v22 (F := Ideal) (arg V main_arg1) := by
  rw [rd3 26 rfl, st_main_v19 V, st_main_v21 V, st_main_v10 V]; rfl
theorem st_main_v23 : fin V main_v23 = val_main_v23 (F := Ideal) (arg V main_arg1) := by
  rw [rd1 27 rfl, st_main_v22 V]; rfl
theorem st_main_v24 : fin V main_v24 = val_main_v24 (F := Ideal) (arg V main_arg0) (arg V main_arg1) := by
  rw [rd2 28 rfl, st_main_v0 V, st_main_v23 V]; rfl
theorem st_main_v25 : fin V main_v25 = val_main_v25 (F := Ideal) (arg V main_arg0) (arg V main_arg1) := by
  rw [rd2 29 rfl, st_main_v17 V, st_main_v24 V]; rfl
theorem st_main_v26 : fin V main_v26 = val_main_v26 (F := Ideal) (arg V main_arg0) (arg V main_arg1) := by
  rw [rd1 30 rfl, st_main_v25 V]; rfl
theorem st_main_v27 : fin V main_v27 = val_main_v27 (F := Ideal) (arg V main_arg2) := by
  rw [rd1 31 rfl, st_arg V main_arg2]; rfl
theorem st_main_v28 : fin V main_v28 = val_main_v28 (F := Ideal) (arg V main_arg2) := by
  rw [rdr 32 rfl, st_main_v27 V]; rfl
theorem st_main_v29 : fin V main_v29 = val_main_v29 (F := Ideal) (arg V main_arg2) := by
  rw [rd1 33 rfl, st_main_v28 V]; rfl
theorem st_main_v30 : fin V main_v30 = val_main_v30 (F := Ideal) (arg V main_arg0) (arg V main_arg1) (arg V main_arg2) := by
  rw [rd2 34 rfl, st_main_v26 V, st_main_v29 V]; rfl
theorem st_main_v31 : fin V main_v31 = val_main_v31 (F := Ideal) (arg V main_arg3) := by
  rw [rd1 35 rfl, st_arg V main_arg3]; rfl
theorem st_main_v32 : fin V main_v32 = val_main_v32 (F := Ideal) (arg V main_arg3) := by
  rw [rdr 36 rfl, st_main_v31 V]; rfl
theorem st_main_v33 : fin V main_v33 = val_main_v33 (F := Ideal) (arg V main_arg3) := by
  rw [rd1 37 rfl, st_main_v32 V]; rfl
theorem st_main_v34 : fin V main_v34 = val_main_v34 (F := Ideal) (arg V main_arg3) := by
  rw [rd1 38 rfl, st_main_v33 V]; rfl
theorem st_main_v35 : fin V main_v35 = val_main_v35 (F := Ideal) (arg V main_arg0) (arg V main_arg1) (arg V main_arg2) (arg V main_arg3) := by
  rw [rd2 39 rfl, st_main_v30 V, st_main_v34 V]; rfl
theorem st_main_v36 : fin V main_v36 = val_main_v36 (F := Ideal) (arg V main_arg0) (arg V main_arg1) := by
  rw [rd1 40 rfl, st_main_v25 V]; rfl
theorem st_main_v37 : fin V main_v37 = val_main_v37 (F := Ideal) (arg V main_arg4) := by
  rw [rd1 41 rfl, st_arg V main_arg4]; rfl
theorem st_main_v38 : fin V main_v38 = val_main_v38 (F := Ideal) (arg V main_arg4) := by
  rw [rdr 42 rfl, st_main_v37 V]; rfl
theorem st_main_v39 : fin V main_v39 = val_main_v39 (F := Ideal) (arg V main_arg4) := by
  rw [rd1 43 rfl, st_main_v38 V]; rfl
theorem st_main_v40 : fin V main_v40 = val_main_v40 (F := Ideal) (arg V main_arg0) (arg V main_arg1) (arg V main_arg4) := by
  rw [rd2 44 rfl, st_main_v36 V, st_main_v39 V]; rfl
theorem st_main_v41 : fin V main_v41 = val_main_v41 (F := Ideal) (arg V main_arg5) := by
  rw [rd1 45 rfl, st_arg V main_arg5]; rfl
theorem st_main_v42 : fin V main_v42 = val_main_v42 (F := Ideal) (arg V main_arg5) := by
  rw [rdr 46 rfl, st_main_v41 V]; rfl
theorem st_main_v43 : fin V main_v43 = val_main_v43 (F := Ideal) (arg V main_arg5) := by
  rw [rd1 47 rfl, st_main_v42 V]; rfl
theorem st_main_v44 : fin V main_v44 = val_main_v44 (F := Ideal) (arg V main_arg5) := by
  rw [rd1 48 rfl, st_main_v43 V]; rfl
theorem st_main_v45 : fin V main_v45 = val_main_v45 (F := Ideal) (arg V main_arg0) (arg V main_arg1) (arg V main_arg4) (arg V main_arg5) := by
  rw [rd2 49 rfl, st_main_v40 V, st_main_v44 V]; rfl
theorem st_main_v46 : fin V main_v46 = val_main_v46 (F := Ideal) (arg V main_arg0) (arg V main_arg1) (arg V main_arg2) (arg V main_arg3) (arg V main_arg4) (arg V main_arg5) := by
  rw [rd2 50 rfl, st_main_v35 V, st_main_v45 V]; rfl
theorem st_main_cst : fin V main_cst = val_main_cst (F := Ideal) := by
  rw [rd0 51 rfl]; rfl
theorem st_main_v47 : fin V main_v47 = val_main_v47 (F := Ideal) := by
  rw [rd1 52 rfl, st_main_cst V]; rfl
theorem st_main_v48 : fin V main_v48 = val_main_v48 (F := Ideal) (arg V main_arg1) := by
  rw [rd1 53 rfl, st_main_v10 V]; rfl
theorem st_main_v49 : fin V main_v49 = val_main_v49 (F := Ideal) (arg V main_arg0) (arg V main_arg1) (arg V main_arg2) (arg V main_arg3) (arg V main_arg4) (arg V main_arg5) := by
  rw [rd3 54 rfl, st_main_v47 V, st_main_v48 V, st_main_v46 V]; rfl
theorem st_main_v50 : fin V main_v50 = val_main_v50 (F := Ideal) (arg V main_arg6) := by
  rw [rd1 55 rfl, st_arg V main_arg6]; rfl
theorem st_main_v51 : fin V main_v51 = val_main_v51 (F := Ideal) (arg V main_arg6) := by
  rw [rdr 56 rfl, st_main_v50 V]; rfl
theorem st_main_v52 : fin V main_v52 = val_main_v52 (F := Ideal) (arg V main_arg6) := by
  rw [rd1 57 rfl, st_main_v51 V]; rfl
theorem st_main_v53 : fin V main_v53 = val_main_v53 (F := Ideal) (arg V main_arg0) (arg V main_arg1) (arg V main_arg2) (arg V main_arg3) (arg V main_arg4) (arg V main_arg5) (arg V main_arg6) := by
  rw [rd2 58 rfl, st_main_v49 V, st_main_v52 V]; rfl
theorem st_main_v54 : fin V main_v54 = val_main_v54 (F := Ideal) (arg V main_arg8) := by
  rw [rd1 59 rfl, st_arg V main_arg8]; rfl

end Cert.ReferenceIdeal.Stages

end
-- ==== Proof.RStages2.lean ====
import proofs.«181595_j41618233098847_1_alg».proof.Proof.RStages1

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP Cert.HostRead

variable (V : Valuation τ sig (Elt Ideal))

theorem st_main_v55 : fin V main_v55 = val_main_v55 (F := Ideal) (arg V main_arg8) := by
  rw [rdr 60 rfl, st_main_v54 V]; rfl
theorem st_main_v56 : fin V main_v56 = val_main_v56 (F := Ideal) (arg V main_arg8) := by
  rw [rd1 61 rfl, st_main_v55 V]; rfl
theorem st_main_v57 : fin V main_v57 = val_main_v57 (F := Ideal) (arg V main_arg8) := by
  rw [rd1 62 rfl, st_main_v56 V]; rfl
theorem st_main_v58 : fin V main_v58 = val_main_v58 (F := Ideal) (arg V main_arg0) (arg V main_arg1) (arg V main_arg2) (arg V main_arg3) (arg V main_arg4) (arg V main_arg5) (arg V main_arg6) (arg V main_arg8) := by
  rw [rd2 63 rfl, st_main_v53 V, st_main_v57 V]; rfl
theorem st_main_v59 : fin V main_v59 = val_main_v59 (F := Ideal) (arg V main_arg7) := by
  rw [rd1 64 rfl, st_arg V main_arg7]; rfl
theorem st_main_v60 : fin V main_v60 = val_main_v60 (F := Ideal) (arg V main_arg7) := by
  rw [rdr 65 rfl, st_main_v59 V]; rfl
theorem st_main_v61 : fin V main_v61 = val_main_v61 (F := Ideal) (arg V main_arg7) := by
  rw [rd1 66 rfl, st_main_v60 V]; rfl
theorem st_main_v62 : fin V main_v62 = val_main_v62 (F := Ideal) (arg V main_arg0) (arg V main_arg7) := by
  rw [rd2 67 rfl, st_main_v0 V, st_main_v61 V]; rfl
theorem st_main_v63 : fin V main_v63 = val_main_v63 (F := Ideal) (arg V main_arg9) := by
  rw [rd1 68 rfl, st_arg V main_arg9]; rfl
theorem st_main_v64 : fin V main_v64 = val_main_v64 (F := Ideal) (arg V main_arg9) := by
  rw [rdr 69 rfl, st_main_v63 V]; rfl
theorem st_main_v65 : fin V main_v65 = val_main_v65 (F := Ideal) (arg V main_arg9) := by
  rw [rd1 70 rfl, st_main_v64 V]; rfl
theorem st_main_v66 : fin V main_v66 = val_main_v66 (F := Ideal) (arg V main_arg9) := by
  rw [rd1 71 rfl, st_main_v65 V]; rfl
theorem st_main_v67 : fin V main_v67 = val_main_v67 (F := Ideal) (arg V main_arg0) (arg V main_arg7) (arg V main_arg9) := by
  rw [rd2 72 rfl, st_main_v62 V, st_main_v66 V]; rfl
theorem st_main_v68 : fin V main_v68 = val_main_v68 (F := Ideal) (arg V main_arg0) (arg V main_arg1) (arg V main_arg2) (arg V main_arg3) (arg V main_arg4) (arg V main_arg5) (arg V main_arg6) (arg V main_arg8) := by
  rw [rd1 73 rfl, st_main_v58 V]; rfl
theorem st_main_v69 : fin V main_v69 = val_main_v69 (F := Ideal) (arg V main_arg0) (arg V main_arg1) (arg V main_arg2) (arg V main_arg3) (arg V main_arg4) (arg V main_arg5) (arg V main_arg6) (arg V main_arg8) := by
  rw [rd1 74 rfl, st_main_v58 V]; rfl
theorem st_main_v70 : fin V main_v70 = val_main_v70 (F := Ideal) (arg V main_arg0) (arg V main_arg1) (arg V main_arg2) (arg V main_arg3) (arg V main_arg4) (arg V main_arg5) (arg V main_arg6) (arg V main_arg8) := by
  rw [rd1 75 rfl, st_main_v58 V]; rfl
theorem st_main_v71 : fin V main_v71 = val_main_v71 (F := Ideal) (arg V main_arg0) (arg V main_arg7) (arg V main_arg9) := by
  rw [rd1 76 rfl, st_main_v67 V]; rfl
theorem st_main_v72 : fin V main_v72 = val_main_v72 (F := Ideal) (arg V main_arg0) (arg V main_arg7) (arg V main_arg9) := by
  rw [rd1 77 rfl, st_main_v67 V]; rfl
theorem st_main_v73 : fin V main_v73 = val_main_v73 (F := Ideal) (arg V main_arg0) (arg V main_arg7) (arg V main_arg9) := by
  rw [rd1 78 rfl, st_main_v67 V]; rfl
theorem st_main_v74 : fin V main_v74 = val_main_v74 (F := Ideal) (arg V main_arg0) (arg V main_arg1) (arg V main_arg2) (arg V main_arg3) (arg V main_arg4) (arg V main_arg5) (arg V main_arg6) (arg V main_arg7) (arg V main_arg8) (arg V main_arg9) := by
  rw [rd2 79 rfl, st_main_v68 V, st_main_v71 V]; rfl
theorem st_main_v75 : fin V main_v75 = val_main_v75 (F := Ideal) (arg V main_arg0) (arg V main_arg1) (arg V main_arg2) (arg V main_arg3) (arg V main_arg4) (arg V main_arg5) (arg V main_arg6) (arg V main_arg7) (arg V main_arg8) (arg V main_arg9) := by
  rw [rd1 80 rfl, st_main_v74 V]; rfl
theorem st_main_v76 : fin V main_v76 = val_main_v76 (F := Ideal) (arg V main_arg0) (arg V main_arg1) (arg V main_arg2) (arg V main_arg3) (arg V main_arg4) (arg V main_arg5) (arg V main_arg6) (arg V main_arg7) (arg V main_arg8) (arg V main_arg9) := by
  rw [rd1 81 rfl, st_main_v75 V]; rfl
theorem st_main_cst_3 : fin V main_cst_3 = val_main_cst_3 (F := Ideal) := by
  rw [rd0 82 rfl]; rfl
theorem st_main_v77 : fin V main_v77 = val_main_v77 (F := Ideal) := by
  rw [rd1 83 rfl, st_main_cst_3 V]; rfl
theorem st_main_v78 : fin V main_v78 = val_main_v78 (F := Ideal) (arg V main_arg0) (arg V main_arg1) (arg V main_arg2) (arg V main_arg3) (arg V main_arg4) (arg V main_arg5) (arg V main_arg6) (arg V main_arg7) (arg V main_arg8) (arg V main_arg9) := by
  rw [rd2 84 rfl, st_main_v77 V, st_main_v76 V]; rfl
theorem st_main_cst_4 : fin V main_cst_4 = val_main_cst_4 (F := Ideal) := by
  rw [rd0 85 rfl]; rfl
theorem st_main_v79 : fin V main_v79 = val_main_v79 (F := Ideal) := by
  rw [rd1 86 rfl, st_main_cst_4 V]; rfl
theorem st_main_v80 : fin V main_v80 = val_main_v80 (F := Ideal) (arg V main_arg0) (arg V main_arg1) (arg V main_arg2) (arg V main_arg3) (arg V main_arg4) (arg V main_arg5) (arg V main_arg6) (arg V main_arg7) (arg V main_arg8) (arg V main_arg9) := by
  rw [rd2 87 rfl, st_main_v79 V, st_main_v78 V]; rfl
theorem st_main_v81 : fin V main_v81 = val_main_v81 (F := Ideal) (arg V main_arg0) (arg V main_arg1) (arg V main_arg2) (arg V main_arg3) (arg V main_arg4) (arg V main_arg5) (arg V main_arg6) (arg V main_arg7) (arg V main_arg8) (arg V main_arg9) := by
  rw [rd2 88 rfl, st_main_v69 V, st_main_v72 V]; rfl
theorem st_main_v82 : fin V main_v82 = val_main_v82 (F := Ideal) (arg V main_arg0) (arg V main_arg1) (arg V main_arg2) (arg V main_arg3) (arg V main_arg4) (arg V main_arg5) (arg V main_arg6) (arg V main_arg7) (arg V main_arg8) (arg V main_arg9) := by
  rw [rd1 89 rfl, st_main_v81 V]; rfl
theorem st_main_v83 : fin V main_v83 = val_main_v83 (F := Ideal) (arg V main_arg0) (arg V main_arg1) (arg V main_arg2) (arg V main_arg3) (arg V main_arg4) (arg V main_arg5) (arg V main_arg6) (arg V main_arg7) (arg V main_arg8) (arg V main_arg9) := by
  rw [rd1 90 rfl, st_main_v82 V]; rfl
theorem st_main_cst_5 : fin V main_cst_5 = val_main_cst_5 (F := Ideal) := by
  rw [rd0 91 rfl]; rfl
theorem st_main_v84 : fin V main_v84 = val_main_v84 (F := Ideal) := by
  rw [rd1 92 rfl, st_main_cst_5 V]; rfl
theorem st_main_v85 : fin V main_v85 = val_main_v85 (F := Ideal) (arg V main_arg0) (arg V main_arg1) (arg V main_arg2) (arg V main_arg3) (arg V main_arg4) (arg V main_arg5) (arg V main_arg6) (arg V main_arg7) (arg V main_arg8) (arg V main_arg9) := by
  rw [rd2 93 rfl, st_main_v84 V, st_main_v83 V]; rfl
theorem st_main_cst_6 : fin V main_cst_6 = val_main_cst_6 (F := Ideal) := by
  rw [rd0 94 rfl]; rfl
theorem st_main_v86 : fin V main_v86 = val_main_v86 (F := Ideal) := by
  rw [rd1 95 rfl, st_main_cst_6 V]; rfl
theorem st_main_v87 : fin V main_v87 = val_main_v87 (F := Ideal) (arg V main_arg0) (arg V main_arg1) (arg V main_arg2) (arg V main_arg3) (arg V main_arg4) (arg V main_arg5) (arg V main_arg6) (arg V main_arg7) (arg V main_arg8) (arg V main_arg9) := by
  rw [rd2 96 rfl, st_main_v86 V, st_main_v85 V]; rfl
theorem st_main_v88 : fin V main_v88 = val_main_v88 (F := Ideal) (arg V main_arg0) (arg V main_arg1) (arg V main_arg2) (arg V main_arg3) (arg V main_arg4) (arg V main_arg5) (arg V main_arg6) (arg V main_arg7) (arg V main_arg8) (arg V main_arg9) := by
  rw [rd2 97 rfl, st_main_v80 V, st_main_v73 V]; rfl
theorem st_main_v89 : fin V main_v89 = val_main_v89 (F := Ideal) (arg V main_arg0) (arg V main_arg1) (arg V main_arg2) (arg V main_arg3) (arg V main_arg4) (arg V main_arg5) (arg V main_arg6) (arg V main_arg7) (arg V main_arg8) (arg V main_arg9) := by
  rw [rd2 98 rfl, st_main_v70 V, st_main_v88 V]; rfl
theorem st_main_v90 : fin V main_v90 = val_main_v90 (F := Ideal) (arg V main_arg0) (arg V main_arg1) (arg V main_arg2) (arg V main_arg3) (arg V main_arg4) (arg V main_arg5) (arg V main_arg6) (arg V main_arg7) (arg V main_arg8) (arg V main_arg9) := by
  rw [rd1 99 rfl, st_main_v89 V]; rfl
theorem st_main_cst_7 : fin V main_cst_7 = val_main_cst_7 (F := Ideal) := by
  rw [rd0 100 rfl]; rfl
theorem st_main_v91 : fin V main_v91 = val_main_v91 (F := Ideal) := by
  rw [rd1 101 rfl, st_main_cst_7 V]; rfl
theorem st_main_v92 : fin V main_v92 = val_main_v92 (F := Ideal) (arg V main_arg0) (arg V main_arg1) (arg V main_arg2) (arg V main_arg3) (arg V main_arg4) (arg V main_arg5) (arg V main_arg6) (arg V main_arg7) (arg V main_arg8) (arg V main_arg9) := by
  rw [rd2 102 rfl, st_main_v91 V, st_main_v87 V]; rfl
theorem st_main_v93 : fin V main_v93 = val_main_v93 (F := Ideal) (arg V main_arg0) (arg V main_arg1) (arg V main_arg2) (arg V main_arg3) (arg V main_arg4) (arg V main_arg5) (arg V main_arg6) (arg V main_arg7) (arg V main_arg8) (arg V main_arg9) := by
  rw [rd2 103 rfl, st_main_v92 V, st_main_v90 V]; rfl
theorem st_main_v94 : fin V main_v94 = val_main_v94 (F := Ideal) (arg V main_arg0) (arg V main_arg1) (arg V main_arg2) (arg V main_arg3) (arg V main_arg4) (arg V main_arg5) (arg V main_arg6) (arg V main_arg7) (arg V main_arg8) (arg V main_arg9) := by
  rw [rd2 104 rfl, st_main_v87 V, st_main_v0 V]; rfl
theorem st_main_v95 : fin V main_v95 = val_main_v95 (F := Ideal) (arg V main_arg0) (arg V main_arg1) (arg V main_arg2) (arg V main_arg3) (arg V main_arg4) (arg V main_arg5) (arg V main_arg6) (arg V main_arg7) (arg V main_arg8) (arg V main_arg9) := by
  rw [rd2 105 rfl, st_main_v93 V, st_main_v94 V]; rfl
theorem st_main_c_8 : fin V main_c_8 = val_main_c_8 (F := Ideal) := by
  rw [rd0 106 rfl]; rfl
theorem st_main_v96 : fin V main_v96 = val_main_v96 (F := Ideal) := by
  rw [rd1 107 rfl, st_main_c_8 V]; rfl
theorem st_main_v97 : fin V main_v97 = val_main_v97 (F := Ideal) (arg V main_arg1) := by
  rw [rd2 108 rfl, st_main_v5 V, st_main_v96 V]; rfl
theorem st_main_c_9 : fin V main_c_9 = val_main_c_9 (F := Ideal) := by
  rw [rd0 109 rfl]; rfl
theorem st_main_v98 : fin V main_v98 = val_main_v98 (F := Ideal) := by
  rw [rd1 110 rfl, st_main_c_9 V]; rfl
theorem st_main_v99 : fin V main_v99 = val_main_v99 (F := Ideal) (arg V main_arg1) := by
  rw [rd2 111 rfl, st_main_v5 V, st_main_v98 V]; rfl
theorem st_main_v100 : fin V main_v100 = val_main_v100 (F := Ideal) (arg V main_arg1) := by
  rw [rd3 112 rfl, st_main_v97 V, st_main_v99 V, st_main_v5 V]; rfl
theorem st_main_v101 : fin V main_v101 = val_main_v101 (F := Ideal) (arg V main_arg1) := by
  rw [rd1 113 rfl, st_main_v100 V]; rfl
theorem st_main_v102 : fin V main_v102 = val_main_v102 (F := Ideal) (arg V main_arg0) (arg V main_arg1) (arg V main_arg2) (arg V main_arg3) (arg V main_arg4) (arg V main_arg5) (arg V main_arg6) (arg V main_arg7) (arg V main_arg8) (arg V main_arg9) := by
  rw [rd2 114 rfl, st_main_v95 V, st_main_v101 V]; rfl
theorem st_main_c_10 : fin V main_c_10 = val_main_c_10 (F := Ideal) := by
  rw [rd0 115 rfl]; rfl
theorem st_main_v103 : fin V main_v103 = val_main_v103 (F := Ideal) := by
  rw [rd1 116 rfl, st_main_c_10 V]; rfl
theorem st_main_v104 : fin V main_v104 = val_main_v104 (F := Ideal) (arg V main_arg1) := by
  rw [rd2 117 rfl, st_main_v10 V, st_main_v103 V]; rfl
theorem st_main_c_11 : fin V main_c_11 = val_main_c_11 (F := Ideal) := by
  rw [rd0 118 rfl]; rfl
theorem st_main_v105 : fin V main_v105 = val_main_v105 (F := Ideal) := by
  rw [rd1 119 rfl, st_main_c_11 V]; rfl

end Cert.ReferenceIdeal.Stages

end
-- ==== Proof.RStages3.lean ====
import proofs.«181595_j41618233098847_1_alg».proof.Proof.RStages2

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP Cert.HostRead

variable (V : Valuation τ sig (Elt Ideal))

theorem st_main_v106 : fin V main_v106 = val_main_v106 (F := Ideal) (arg V main_arg1) := by
  rw [rd2 120 rfl, st_main_v10 V, st_main_v105 V]; rfl
theorem st_main_v107 : fin V main_v107 = val_main_v107 (F := Ideal) (arg V main_arg1) := by
  rw [rd3 121 rfl, st_main_v104 V, st_main_v106 V, st_main_v10 V]; rfl
theorem st_main_v108 : fin V main_v108 = val_main_v108 (F := Ideal) (arg V main_arg1) := by
  rw [rd1 122 rfl, st_main_v107 V]; rfl
theorem st_main_v109 : fin V main_v109 = val_main_v109 (F := Ideal) (arg V main_arg0) (arg V main_arg1) (arg V main_arg2) (arg V main_arg3) (arg V main_arg4) (arg V main_arg5) (arg V main_arg6) (arg V main_arg7) (arg V main_arg8) (arg V main_arg9) := by
  rw [rd2 123 rfl, st_main_v95 V, st_main_v108 V]; rfl
theorem st_main_v110 : fin V main_v110 = val_main_v110 (F := Ideal) (arg V main_arg0) (arg V main_arg1) (arg V main_arg2) (arg V main_arg3) (arg V main_arg4) (arg V main_arg5) (arg V main_arg6) (arg V main_arg7) (arg V main_arg8) (arg V main_arg9) := by
  rw [rd2 124 rfl, st_main_v102 V, st_main_v109 V]; rfl
theorem st_main_v111 : fin V main_v111 = val_main_v111 (F := Ideal) (arg V main_arg0) (arg V main_arg1) (arg V main_arg2) (arg V main_arg3) (arg V main_arg4) (arg V main_arg5) (arg V main_arg6) (arg V main_arg7) (arg V main_arg8) (arg V main_arg9) := by
  rw [rd1 125 rfl, st_main_v110 V]; rfl
theorem st_main_v112 : fin V main_v112 = val_main_v112 (F := Ideal) (arg V main_arg2) := by
  rw [rd1 126 rfl, st_arg V main_arg2]; rfl
theorem st_main_v113 : fin V main_v113 = val_main_v113 (F := Ideal) (arg V main_arg2) := by
  rw [rdr 127 rfl, st_main_v112 V]; rfl
theorem st_main_v114 : fin V main_v114 = val_main_v114 (F := Ideal) (arg V main_arg2) := by
  rw [rd1 128 rfl, st_main_v113 V]; rfl
theorem st_main_v115 : fin V main_v115 = val_main_v115 (F := Ideal) (arg V main_arg0) (arg V main_arg1) (arg V main_arg2) (arg V main_arg3) (arg V main_arg4) (arg V main_arg5) (arg V main_arg6) (arg V main_arg7) (arg V main_arg8) (arg V main_arg9) := by
  rw [rd2 129 rfl, st_main_v111 V, st_main_v114 V]; rfl
theorem st_main_v116 : fin V main_v116 = val_main_v116 (F := Ideal) (arg V main_arg3) := by
  rw [rd1 130 rfl, st_arg V main_arg3]; rfl
theorem st_main_v117 : fin V main_v117 = val_main_v117 (F := Ideal) (arg V main_arg3) := by
  rw [rdr 131 rfl, st_main_v116 V]; rfl
theorem st_main_v118 : fin V main_v118 = val_main_v118 (F := Ideal) (arg V main_arg3) := by
  rw [rd1 132 rfl, st_main_v117 V]; rfl
theorem st_main_v119 : fin V main_v119 = val_main_v119 (F := Ideal) (arg V main_arg3) := by
  rw [rd1 133 rfl, st_main_v118 V]; rfl
theorem st_main_v120 : fin V main_v120 = val_main_v120 (F := Ideal) (arg V main_arg0) (arg V main_arg1) (arg V main_arg2) (arg V main_arg3) (arg V main_arg4) (arg V main_arg5) (arg V main_arg6) (arg V main_arg7) (arg V main_arg8) (arg V main_arg9) := by
  rw [rd2 134 rfl, st_main_v115 V, st_main_v119 V]; rfl
theorem st_main_v121 : fin V main_v121 = val_main_v121 (F := Ideal) (arg V main_arg0) (arg V main_arg1) (arg V main_arg2) (arg V main_arg3) (arg V main_arg4) (arg V main_arg5) (arg V main_arg6) (arg V main_arg7) (arg V main_arg8) (arg V main_arg9) := by
  rw [rd1 135 rfl, st_main_v110 V]; rfl
theorem st_main_v122 : fin V main_v122 = val_main_v122 (F := Ideal) (arg V main_arg4) := by
  rw [rd1 136 rfl, st_arg V main_arg4]; rfl
theorem st_main_v123 : fin V main_v123 = val_main_v123 (F := Ideal) (arg V main_arg4) := by
  rw [rdr 137 rfl, st_main_v122 V]; rfl
theorem st_main_v124 : fin V main_v124 = val_main_v124 (F := Ideal) (arg V main_arg4) := by
  rw [rd1 138 rfl, st_main_v123 V]; rfl
theorem st_main_v125 : fin V main_v125 = val_main_v125 (F := Ideal) (arg V main_arg0) (arg V main_arg1) (arg V main_arg2) (arg V main_arg3) (arg V main_arg4) (arg V main_arg5) (arg V main_arg6) (arg V main_arg7) (arg V main_arg8) (arg V main_arg9) := by
  rw [rd2 139 rfl, st_main_v121 V, st_main_v124 V]; rfl
theorem st_main_v126 : fin V main_v126 = val_main_v126 (F := Ideal) (arg V main_arg5) := by
  rw [rd1 140 rfl, st_arg V main_arg5]; rfl
theorem st_main_v127 : fin V main_v127 = val_main_v127 (F := Ideal) (arg V main_arg5) := by
  rw [rdr 141 rfl, st_main_v126 V]; rfl
theorem st_main_v128 : fin V main_v128 = val_main_v128 (F := Ideal) (arg V main_arg5) := by
  rw [rd1 142 rfl, st_main_v127 V]; rfl
theorem st_main_v129 : fin V main_v129 = val_main_v129 (F := Ideal) (arg V main_arg5) := by
  rw [rd1 143 rfl, st_main_v128 V]; rfl
theorem st_main_v130 : fin V main_v130 = val_main_v130 (F := Ideal) (arg V main_arg0) (arg V main_arg1) (arg V main_arg2) (arg V main_arg3) (arg V main_arg4) (arg V main_arg5) (arg V main_arg6) (arg V main_arg7) (arg V main_arg8) (arg V main_arg9) := by
  rw [rd2 144 rfl, st_main_v125 V, st_main_v129 V]; rfl
theorem st_main_v131 : fin V main_v131 = val_main_v131 (F := Ideal) (arg V main_arg0) (arg V main_arg1) (arg V main_arg2) (arg V main_arg3) (arg V main_arg4) (arg V main_arg5) (arg V main_arg6) (arg V main_arg7) (arg V main_arg8) (arg V main_arg9) := by
  rw [rd2 145 rfl, st_main_v120 V, st_main_v130 V]; rfl
theorem st_main_cst_12 : fin V main_cst_12 = val_main_cst_12 (F := Ideal) := by
  rw [rd0 146 rfl]; rfl
theorem st_main_v132 : fin V main_v132 = val_main_v132 (F := Ideal) := by
  rw [rd1 147 rfl, st_main_cst_12 V]; rfl
theorem st_main_v133 : fin V main_v133 = val_main_v133 (F := Ideal) (arg V main_arg1) := by
  rw [rd1 148 rfl, st_main_v10 V]; rfl
theorem st_main_v134 : fin V main_v134 = val_main_v134 (F := Ideal) (arg V main_arg0) (arg V main_arg1) (arg V main_arg2) (arg V main_arg3) (arg V main_arg4) (arg V main_arg5) (arg V main_arg6) (arg V main_arg7) (arg V main_arg8) (arg V main_arg9) := by
  rw [rd3 149 rfl, st_main_v132 V, st_main_v133 V, st_main_v131 V]; rfl
theorem st_main_v135 : fin V main_v135 = val_main_v135 (F := Ideal) (arg V main_arg6) := by
  rw [rd1 150 rfl, st_arg V main_arg6]; rfl
theorem st_main_v136 : fin V main_v136 = val_main_v136 (F := Ideal) (arg V main_arg6) := by
  rw [rdr 151 rfl, st_main_v135 V]; rfl
theorem st_main_v137 : fin V main_v137 = val_main_v137 (F := Ideal) (arg V main_arg6) := by
  rw [rd1 152 rfl, st_main_v136 V]; rfl
theorem st_main_v138 : fin V main_v138 = val_main_v138 (F := Ideal) (arg V main_arg0) (arg V main_arg1) (arg V main_arg2) (arg V main_arg3) (arg V main_arg4) (arg V main_arg5) (arg V main_arg6) (arg V main_arg7) (arg V main_arg8) (arg V main_arg9) := by
  rw [rd2 153 rfl, st_main_v134 V, st_main_v137 V]; rfl
theorem st_main_v139 : fin V main_v139 = val_main_v139 (F := Ideal) (arg V main_arg8) := by
  rw [rd1 154 rfl, st_arg V main_arg8]; rfl
theorem st_main_v140 : fin V main_v140 = val_main_v140 (F := Ideal) (arg V main_arg8) := by
  rw [rdr 155 rfl, st_main_v139 V]; rfl
theorem st_main_v141 : fin V main_v141 = val_main_v141 (F := Ideal) (arg V main_arg8) := by
  rw [rd1 156 rfl, st_main_v140 V]; rfl
theorem st_main_v142 : fin V main_v142 = val_main_v142 (F := Ideal) (arg V main_arg8) := by
  rw [rd1 157 rfl, st_main_v141 V]; rfl
theorem st_main_v143 : fin V main_v143 = val_main_v143 (F := Ideal) (arg V main_arg0) (arg V main_arg1) (arg V main_arg2) (arg V main_arg3) (arg V main_arg4) (arg V main_arg5) (arg V main_arg6) (arg V main_arg7) (arg V main_arg8) (arg V main_arg9) := by
  rw [rd2 158 rfl, st_main_v138 V, st_main_v142 V]; rfl
theorem st_main_v144 : fin V main_v144 = val_main_v144 (F := Ideal) (arg V main_arg7) := by
  rw [rd1 159 rfl, st_arg V main_arg7]; rfl
theorem st_main_v145 : fin V main_v145 = val_main_v145 (F := Ideal) (arg V main_arg7) := by
  rw [rdr 160 rfl, st_main_v144 V]; rfl
theorem st_main_v146 : fin V main_v146 = val_main_v146 (F := Ideal) (arg V main_arg7) := by
  rw [rd1 161 rfl, st_main_v145 V]; rfl
theorem st_main_v147 : fin V main_v147 = val_main_v147 (F := Ideal) (arg V main_arg0) (arg V main_arg1) (arg V main_arg2) (arg V main_arg3) (arg V main_arg4) (arg V main_arg5) (arg V main_arg6) (arg V main_arg7) (arg V main_arg8) (arg V main_arg9) := by
  rw [rd2 162 rfl, st_main_v95 V, st_main_v146 V]; rfl
theorem st_main_v148 : fin V main_v148 = val_main_v148 (F := Ideal) (arg V main_arg9) := by
  rw [rd1 163 rfl, st_arg V main_arg9]; rfl
theorem st_main_v149 : fin V main_v149 = val_main_v149 (F := Ideal) (arg V main_arg9) := by
  rw [rdr 164 rfl, st_main_v148 V]; rfl
theorem st_main_v150 : fin V main_v150 = val_main_v150 (F := Ideal) (arg V main_arg9) := by
  rw [rd1 165 rfl, st_main_v149 V]; rfl
theorem st_main_v151 : fin V main_v151 = val_main_v151 (F := Ideal) (arg V main_arg9) := by
  rw [rd1 166 rfl, st_main_v150 V]; rfl
theorem st_main_v152 : fin V main_v152 = val_main_v152 (F := Ideal) (arg V main_arg0) (arg V main_arg1) (arg V main_arg2) (arg V main_arg3) (arg V main_arg4) (arg V main_arg5) (arg V main_arg6) (arg V main_arg7) (arg V main_arg8) (arg V main_arg9) := by
  rw [rd2 167 rfl, st_main_v147 V, st_main_v151 V]; rfl
theorem st_main_v153 : fin V main_v153 = val_main_v153 (F := Ideal) (arg V main_arg0) (arg V main_arg1) (arg V main_arg2) (arg V main_arg3) (arg V main_arg4) (arg V main_arg5) (arg V main_arg6) (arg V main_arg7) (arg V main_arg8) (arg V main_arg9) := by
  rw [rd1 168 rfl, st_main_v143 V]; rfl
theorem st_main_v154 : fin V main_v154 = val_main_v154 (F := Ideal) (arg V main_arg0) (arg V main_arg1) (arg V main_arg2) (arg V main_arg3) (arg V main_arg4) (arg V main_arg5) (arg V main_arg6) (arg V main_arg7) (arg V main_arg8) (arg V main_arg9) := by
  rw [rd1 169 rfl, st_main_v143 V]; rfl
theorem st_main_v155 : fin V main_v155 = val_main_v155 (F := Ideal) (arg V main_arg0) (arg V main_arg1) (arg V main_arg2) (arg V main_arg3) (arg V main_arg4) (arg V main_arg5) (arg V main_arg6) (arg V main_arg7) (arg V main_arg8) (arg V main_arg9) := by
  rw [rd1 170 rfl, st_main_v143 V]; rfl
theorem st_main_v156 : fin V main_v156 = val_main_v156 (F := Ideal) (arg V main_arg0) (arg V main_arg1) (arg V main_arg2) (arg V main_arg3) (arg V main_arg4) (arg V main_arg5) (arg V main_arg6) (arg V main_arg7) (arg V main_arg8) (arg V main_arg9) := by
  rw [rd1 171 rfl, st_main_v152 V]; rfl
theorem st_main_v157 : fin V main_v157 = val_main_v157 (F := Ideal) (arg V main_arg0) (arg V main_arg1) (arg V main_arg2) (arg V main_arg3) (arg V main_arg4) (arg V main_arg5) (arg V main_arg6) (arg V main_arg7) (arg V main_arg8) (arg V main_arg9) := by
  rw [rd1 172 rfl, st_main_v152 V]; rfl
theorem st_main_v158 : fin V main_v158 = val_main_v158 (F := Ideal) (arg V main_arg0) (arg V main_arg1) (arg V main_arg2) (arg V main_arg3) (arg V main_arg4) (arg V main_arg5) (arg V main_arg6) (arg V main_arg7) (arg V main_arg8) (arg V main_arg9) := by
  rw [rd1 173 rfl, st_main_v152 V]; rfl
theorem st_main_v159 : fin V main_v159 = val_main_v159 (F := Ideal) (arg V main_arg0) (arg V main_arg1) (arg V main_arg2) (arg V main_arg3) (arg V main_arg4) (arg V main_arg5) (arg V main_arg6) (arg V main_arg7) (arg V main_arg8) (arg V main_arg9) := by
  rw [rd2 174 rfl, st_main_v153 V, st_main_v156 V]; rfl
theorem st_main_v160 : fin V main_v160 = val_main_v160 (F := Ideal) (arg V main_arg0) (arg V main_arg1) (arg V main_arg2) (arg V main_arg3) (arg V main_arg4) (arg V main_arg5) (arg V main_arg6) (arg V main_arg7) (arg V main_arg8) (arg V main_arg9) := by
  rw [rd1 175 rfl, st_main_v159 V]; rfl
theorem st_main_v161 : fin V main_v161 = val_main_v161 (F := Ideal) (arg V main_arg0) (arg V main_arg1) (arg V main_arg2) (arg V main_arg3) (arg V main_arg4) (arg V main_arg5) (arg V main_arg6) (arg V main_arg7) (arg V main_arg8) (arg V main_arg9) := by
  rw [rd1 176 rfl, st_main_v160 V]; rfl
theorem st_main_cst_13 : fin V main_cst_13 = val_main_cst_13 (F := Ideal) := by
  rw [rd0 177 rfl]; rfl
theorem st_main_v162 : fin V main_v162 = val_main_v162 (F := Ideal) := by
  rw [rd1 178 rfl, st_main_cst_13 V]; rfl
theorem st_main_v163 : fin V main_v163 = val_main_v163 (F := Ideal) (arg V main_arg0) (arg V main_arg1) (arg V main_arg2) (arg V main_arg3) (arg V main_arg4) (arg V main_arg5) (arg V main_arg6) (arg V main_arg7) (arg V main_arg8) (arg V main_arg9) := by
  rw [rd2 179 rfl, st_main_v162 V, st_main_v161 V]; rfl

end Cert.ReferenceIdeal.Stages

end
-- ==== Proof.RStages4.lean ====
import proofs.«181595_j41618233098847_1_alg».proof.Proof.RStages3

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP Cert.HostRead

variable (V : Valuation τ sig (Elt Ideal))

theorem st_main_cst_14 : fin V main_cst_14 = val_main_cst_14 (F := Ideal) := by
  rw [rd0 180 rfl]; rfl
theorem st_main_v164 : fin V main_v164 = val_main_v164 (F := Ideal) := by
  rw [rd1 181 rfl, st_main_cst_14 V]; rfl
theorem st_main_v165 : fin V main_v165 = val_main_v165 (F := Ideal) (arg V main_arg0) (arg V main_arg1) (arg V main_arg2) (arg V main_arg3) (arg V main_arg4) (arg V main_arg5) (arg V main_arg6) (arg V main_arg7) (arg V main_arg8) (arg V main_arg9) := by
  rw [rd2 182 rfl, st_main_v164 V, st_main_v163 V]; rfl
theorem st_main_v166 : fin V main_v166 = val_main_v166 (F := Ideal) (arg V main_arg0) (arg V main_arg1) (arg V main_arg2) (arg V main_arg3) (arg V main_arg4) (arg V main_arg5) (arg V main_arg6) (arg V main_arg7) (arg V main_arg8) (arg V main_arg9) := by
  rw [rd2 183 rfl, st_main_v154 V, st_main_v157 V]; rfl
theorem st_main_v167 : fin V main_v167 = val_main_v167 (F := Ideal) (arg V main_arg0) (arg V main_arg1) (arg V main_arg2) (arg V main_arg3) (arg V main_arg4) (arg V main_arg5) (arg V main_arg6) (arg V main_arg7) (arg V main_arg8) (arg V main_arg9) := by
  rw [rd1 184 rfl, st_main_v166 V]; rfl
theorem st_main_v168 : fin V main_v168 = val_main_v168 (F := Ideal) (arg V main_arg0) (arg V main_arg1) (arg V main_arg2) (arg V main_arg3) (arg V main_arg4) (arg V main_arg5) (arg V main_arg6) (arg V main_arg7) (arg V main_arg8) (arg V main_arg9) := by
  rw [rd1 185 rfl, st_main_v167 V]; rfl
theorem st_main_cst_15 : fin V main_cst_15 = val_main_cst_15 (F := Ideal) := by
  rw [rd0 186 rfl]; rfl
theorem st_main_v169 : fin V main_v169 = val_main_v169 (F := Ideal) := by
  rw [rd1 187 rfl, st_main_cst_15 V]; rfl
theorem st_main_v170 : fin V main_v170 = val_main_v170 (F := Ideal) (arg V main_arg0) (arg V main_arg1) (arg V main_arg2) (arg V main_arg3) (arg V main_arg4) (arg V main_arg5) (arg V main_arg6) (arg V main_arg7) (arg V main_arg8) (arg V main_arg9) := by
  rw [rd2 188 rfl, st_main_v169 V, st_main_v168 V]; rfl
theorem st_main_cst_16 : fin V main_cst_16 = val_main_cst_16 (F := Ideal) := by
  rw [rd0 189 rfl]; rfl
theorem st_main_v171 : fin V main_v171 = val_main_v171 (F := Ideal) := by
  rw [rd1 190 rfl, st_main_cst_16 V]; rfl
theorem st_main_v172 : fin V main_v172 = val_main_v172 (F := Ideal) (arg V main_arg0) (arg V main_arg1) (arg V main_arg2) (arg V main_arg3) (arg V main_arg4) (arg V main_arg5) (arg V main_arg6) (arg V main_arg7) (arg V main_arg8) (arg V main_arg9) := by
  rw [rd2 191 rfl, st_main_v171 V, st_main_v170 V]; rfl
theorem st_main_v173 : fin V main_v173 = val_main_v173 (F := Ideal) (arg V main_arg0) (arg V main_arg1) (arg V main_arg2) (arg V main_arg3) (arg V main_arg4) (arg V main_arg5) (arg V main_arg6) (arg V main_arg7) (arg V main_arg8) (arg V main_arg9) := by
  rw [rd2 192 rfl, st_main_v165 V, st_main_v158 V]; rfl
theorem st_main_v174 : fin V main_v174 = val_main_v174 (F := Ideal) (arg V main_arg0) (arg V main_arg1) (arg V main_arg2) (arg V main_arg3) (arg V main_arg4) (arg V main_arg5) (arg V main_arg6) (arg V main_arg7) (arg V main_arg8) (arg V main_arg9) := by
  rw [rd2 193 rfl, st_main_v155 V, st_main_v173 V]; rfl
theorem st_main_v175 : fin V main_v175 = val_main_v175 (F := Ideal) (arg V main_arg0) (arg V main_arg1) (arg V main_arg2) (arg V main_arg3) (arg V main_arg4) (arg V main_arg5) (arg V main_arg6) (arg V main_arg7) (arg V main_arg8) (arg V main_arg9) := by
  rw [rd1 194 rfl, st_main_v174 V]; rfl
theorem st_main_cst_17 : fin V main_cst_17 = val_main_cst_17 (F := Ideal) := by
  rw [rd0 195 rfl]; rfl
theorem st_main_v176 : fin V main_v176 = val_main_v176 (F := Ideal) := by
  rw [rd1 196 rfl, st_main_cst_17 V]; rfl
theorem st_main_v177 : fin V main_v177 = val_main_v177 (F := Ideal) (arg V main_arg0) (arg V main_arg1) (arg V main_arg2) (arg V main_arg3) (arg V main_arg4) (arg V main_arg5) (arg V main_arg6) (arg V main_arg7) (arg V main_arg8) (arg V main_arg9) := by
  rw [rd2 197 rfl, st_main_v176 V, st_main_v172 V]; rfl
theorem st_main_v178 : fin V main_v178 = val_main_v178 (F := Ideal) (arg V main_arg0) (arg V main_arg1) (arg V main_arg2) (arg V main_arg3) (arg V main_arg4) (arg V main_arg5) (arg V main_arg6) (arg V main_arg7) (arg V main_arg8) (arg V main_arg9) := by
  rw [rd2 198 rfl, st_main_v177 V, st_main_v175 V]; rfl
theorem st_main_v179 : fin V main_v179 = val_main_v179 (F := Ideal) (arg V main_arg0) (arg V main_arg1) (arg V main_arg2) (arg V main_arg3) (arg V main_arg4) (arg V main_arg5) (arg V main_arg6) (arg V main_arg7) (arg V main_arg8) (arg V main_arg9) := by
  rw [rd2 199 rfl, st_main_v172 V, st_main_v95 V]; rfl
theorem st_main_v180 : fin V main_v180 = val_main_v180 (F := Ideal) (arg V main_arg0) (arg V main_arg1) (arg V main_arg2) (arg V main_arg3) (arg V main_arg4) (arg V main_arg5) (arg V main_arg6) (arg V main_arg7) (arg V main_arg8) (arg V main_arg9) := by
  rw [rd2 200 rfl, st_main_v178 V, st_main_v179 V]; rfl
theorem st_main_call0_v0 : fin V main_call0_v0 = val_main_call0_v0 (F := Ideal) (arg V main_arg0) (arg V main_arg1) (arg V main_arg2) (arg V main_arg3) (arg V main_arg4) (arg V main_arg5) (arg V main_arg6) (arg V main_arg7) (arg V main_arg8) (arg V main_arg9) := by
  rw [rd2 (a := main_v180) (b := main_v180) (y := main_call0_v0) (f := mulf (F := Ideal)) 201 rfl, st_main_v180 V]; rfl
theorem st_main_call0_cst : fin V main_call0_cst = val_main_call0_cst (F := Ideal) := by
  rw [rd0 (y := main_call0_cst) (v := (constant (F := Ideal) S_ .f32 0x00000000#32)) 202 rfl]; rfl
theorem st_main_call0_v1 : fin V main_call0_v1 = val_main_call0_v1 (F := Ideal) (arg V main_arg0) (arg V main_arg1) (arg V main_arg2) (arg V main_arg3) (arg V main_arg4) (arg V main_arg5) (arg V main_arg6) (arg V main_arg7) (arg V main_arg8) (arg V main_arg9) := by
  rw [rd2 (a := main_call0_v0) (b := main_call0_cst) (y := main_call0_v1) (f := (fun x v => Host.reduceAdd (F := Ideal) x v reducesTo_S32768x128_S32768_d1 h_S_)) 203 rfl, st_main_call0_v0 V, st_main_call0_cst V]; rfl
theorem st_main_call0_v2 : fin V main_call0_v2 = val_main_call0_v2 (F := Ideal) (arg V main_arg0) (arg V main_arg1) (arg V main_arg2) (arg V main_arg3) (arg V main_arg4) (arg V main_arg5) (arg V main_arg6) (arg V main_arg7) (arg V main_arg8) (arg V main_arg9) := by
  rw [rd1 (x := main_call0_v1) (y := main_call0_v2) (f := (broadcastInDim S32768x1 ![0] bcast_S32768_S32768x1_0)) 204 rfl, st_main_call0_v1 V]; rfl
theorem st_main_v181 : fin V main_v181 = val_main_v181 (F := Ideal) (arg V main_arg0) (arg V main_arg1) (arg V main_arg2) (arg V main_arg3) (arg V main_arg4) (arg V main_arg5) (arg V main_arg6) (arg V main_arg7) (arg V main_arg8) (arg V main_arg9) := by
  rw [rd1 (x := main_call0_v2) (y := main_v181) (f := Host.sqrt (F := Ideal)) 205 rfl, st_main_call0_v2 V]; rfl
theorem st_main_cst_18 : fin V main_cst_18 = val_main_cst_18 (F := Ideal) := by
  rw [rd0 206 rfl]; rfl
theorem st_main_v182 : fin V main_v182 = val_main_v182 (F := Ideal) := by
  rw [rd1 207 rfl, st_main_cst_18 V]; rfl
theorem st_main_v183 : fin V main_v183 = val_main_v183 (F := Ideal) (arg V main_arg0) (arg V main_arg1) (arg V main_arg2) (arg V main_arg3) (arg V main_arg4) (arg V main_arg5) (arg V main_arg6) (arg V main_arg7) (arg V main_arg8) (arg V main_arg9) := by
  rw [rd2 208 rfl, st_main_v181 V, st_main_v182 V]; rfl
theorem st_main_v184 : fin V main_v184 = val_main_v184 (F := Ideal) (arg V main_arg0) (arg V main_arg1) (arg V main_arg2) (arg V main_arg3) (arg V main_arg4) (arg V main_arg5) (arg V main_arg6) (arg V main_arg7) (arg V main_arg8) (arg V main_arg9) := by
  rw [rd1 209 rfl, st_main_v183 V]; rfl
theorem st_main_v185 : fin V main_v185 = val_main_v185 (F := Ideal) (arg V main_arg0) (arg V main_arg1) (arg V main_arg2) (arg V main_arg3) (arg V main_arg4) (arg V main_arg5) (arg V main_arg6) (arg V main_arg7) (arg V main_arg8) (arg V main_arg9) := by
  rw [rd2 210 rfl, st_main_v180 V, st_main_v184 V]; rfl
theorem st_main_v186 : fin V main_v186 = val_main_v186 (F := Ideal) (arg V main_arg10) := by
  rw [rd1 211 rfl, st_arg V main_arg10]; rfl
theorem st_main_v187 : fin V main_v187 = val_main_v187 (F := Ideal) (arg V main_arg0) (arg V main_arg1) (arg V main_arg2) (arg V main_arg3) (arg V main_arg4) (arg V main_arg5) (arg V main_arg6) (arg V main_arg7) (arg V main_arg8) (arg V main_arg9) (arg V main_arg10) := by
  rw [rd2 212 rfl, st_main_v185 V, st_main_v186 V]; rfl
theorem st_main_v188 : fin V main_v188 = val_main_v188 (F := Ideal) (arg V main_arg11) := by
  rw [rd1 213 rfl, st_arg V main_arg11]; rfl
theorem st_main_v189 : fin V main_v189 = val_main_v189 (F := Ideal) (arg V main_arg11) := by
  rw [rd1 214 rfl, st_main_v188 V]; rfl
theorem st_main_v190 : fin V main_v190 = val_main_v190 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) := by
  rw [rd2 215 rfl, st_main_v187 V, st_main_v189 V]; rfl
theorem st_main_v191 : fin V main_v191 = val_main_v191 (F := Ideal) (arg V main_arg12) := by
  rw [rd1 216 rfl, st_arg V main_arg12]; rfl
theorem st_main_v192 : fin V main_v192 = val_main_v192 (F := Ideal) (arg V main_arg0) (arg V main_arg1) (arg V main_arg2) (arg V main_arg3) (arg V main_arg4) (arg V main_arg5) (arg V main_arg6) (arg V main_arg7) (arg V main_arg8) (arg V main_arg9) (arg V main_arg12) := by
  rw [rd2 217 rfl, st_main_v185 V, st_main_v191 V]; rfl
theorem st_main_v193 : fin V main_v193 = val_main_v193 (F := Ideal) (arg V main_arg13) := by
  rw [rd1 218 rfl, st_arg V main_arg13]; rfl
theorem st_main_v194 : fin V main_v194 = val_main_v194 (F := Ideal) (arg V main_arg13) := by
  rw [rd1 219 rfl, st_main_v193 V]; rfl
theorem st_main_v195 : fin V main_v195 = val_main_v195 (F := Ideal) (arg V main_arg0) (arg V main_arg1) (arg V main_arg2) (arg V main_arg3) (arg V main_arg4) (arg V main_arg5) (arg V main_arg6) (arg V main_arg7) (arg V main_arg8) (arg V main_arg9) (arg V main_arg12) (arg V main_arg13) := by
  rw [rd2 220 rfl, st_main_v192 V, st_main_v194 V]; rfl
theorem st_main_v196 : fin V main_v196 = val_main_v196 (F := Ideal) (arg V main_arg0) (arg V main_arg1) (arg V main_arg2) (arg V main_arg3) (arg V main_arg4) (arg V main_arg5) (arg V main_arg6) (arg V main_arg7) (arg V main_arg8) (arg V main_arg9) (arg V main_arg12) (arg V main_arg13) := by
  rw [rd1 221 rfl, st_main_v195 V]; rfl
theorem st_main_v197 : fin V main_v197 = val_main_v197 (F := Ideal) (arg V main_arg0) (arg V main_arg1) (arg V main_arg2) (arg V main_arg3) (arg V main_arg4) (arg V main_arg5) (arg V main_arg6) (arg V main_arg7) (arg V main_arg8) (arg V main_arg9) (arg V main_arg12) (arg V main_arg13) := by
  rw [rd1 222 rfl, st_main_v196 V]; rfl
theorem st_main_cst_19 : fin V main_cst_19 = val_main_cst_19 (F := Ideal) := by
  rw [rd0 223 rfl]; rfl
theorem st_main_v198 : fin V main_v198 = val_main_v198 (F := Ideal) := by
  rw [rd1 224 rfl, st_main_cst_19 V]; rfl
theorem st_main_v199 : fin V main_v199 = val_main_v199 (F := Ideal) (arg V main_arg0) (arg V main_arg1) (arg V main_arg2) (arg V main_arg3) (arg V main_arg4) (arg V main_arg5) (arg V main_arg6) (arg V main_arg7) (arg V main_arg8) (arg V main_arg9) (arg V main_arg12) (arg V main_arg13) := by
  rw [rd2 225 rfl, st_main_v198 V, st_main_v197 V]; rfl
theorem st_main_cst_20 : fin V main_cst_20 = val_main_cst_20 (F := Ideal) := by
  rw [rd0 226 rfl]; rfl
theorem st_main_v200 : fin V main_v200 = val_main_v200 (F := Ideal) := by
  rw [rd1 227 rfl, st_main_cst_20 V]; rfl
theorem st_main_v201 : fin V main_v201 = val_main_v201 (F := Ideal) (arg V main_arg0) (arg V main_arg1) (arg V main_arg2) (arg V main_arg3) (arg V main_arg4) (arg V main_arg5) (arg V main_arg6) (arg V main_arg7) (arg V main_arg8) (arg V main_arg9) (arg V main_arg12) (arg V main_arg13) := by
  rw [rd2 228 rfl, st_main_v200 V, st_main_v199 V]; rfl
theorem st_main_v202 : fin V main_v202 = val_main_v202 (F := Ideal) (arg V main_arg0) (arg V main_arg1) (arg V main_arg2) (arg V main_arg3) (arg V main_arg4) (arg V main_arg5) (arg V main_arg6) (arg V main_arg7) (arg V main_arg8) (arg V main_arg9) (arg V main_arg12) (arg V main_arg13) := by
  rw [rd1 229 rfl, st_main_v201 V]; rfl
theorem st_main_v203 : fin V main_v203 = val_main_v203 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd2 230 rfl, st_main_v190 V, st_main_v202 V]; rfl
theorem st_main_v204 : fin V main_v204 = val_main_v204 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rdr 231 rfl, st_main_v203 V]; rfl
theorem st_main_cst_21 : fin V main_cst_21 = val_main_cst_21 (F := Ideal) := by
  rw [rd0 232 rfl]; rfl
theorem st_main_v205 : fin V main_v205 = val_main_v205 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd2 233 rfl, st_main_v204 V, st_main_cst_21 V]; rfl
theorem st_main_call1_v0 : fin V main_call1_v0 = val_main_call1_v0 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd2 (a := main_v205) (b := main_v205) (y := main_call1_v0) (f := mulf (F := Ideal)) 234 rfl, st_main_v205 V]; rfl
theorem st_main_call1_cst : fin V main_call1_cst = val_main_call1_cst (F := Ideal) := by
  rw [rd0 (y := main_call1_cst) (v := (constant (F := Ideal) S_ .f32 0x00000000#32)) 235 rfl]; rfl
theorem st_main_call1_v1 : fin V main_call1_v1 = val_main_call1_v1 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd2 (a := main_call1_v0) (b := main_call1_cst) (y := main_call1_v1) (f := (fun x v => Host.reduceAdd (F := Ideal) x v reducesTo_S256x128_S256_d1 h_S_)) 236 rfl, st_main_call1_v0 V, st_main_call1_cst V]; rfl
theorem st_main_call1_v2 : fin V main_call1_v2 = val_main_call1_v2 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd1 (x := main_call1_v1) (y := main_call1_v2) (f := (broadcastInDim S256x1 ![0] bcast_S256_S256x1_0)) 237 rfl, st_main_call1_v1 V]; rfl
theorem st_main_v206 : fin V main_v206 = val_main_v206 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd1 (x := main_call1_v2) (y := main_v206) (f := Host.sqrt (F := Ideal)) 238 rfl, st_main_call1_v2 V]; rfl
theorem st_main_cst_22 : fin V main_cst_22 = val_main_cst_22 (F := Ideal) := by
  rw [rd0 239 rfl]; rfl
theorem st_main_v207 : fin V main_v207 = val_main_v207 (F := Ideal) := by
  rw [rd1 240 rfl, st_main_cst_22 V]; rfl
theorem st_main_v208 : fin V main_v208 = val_main_v208 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd2 241 rfl, st_main_v206 V, st_main_v207 V]; rfl
theorem st_main_v209 : fin V main_v209 = val_main_v209 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd1 242 rfl, st_main_v208 V]; rfl
theorem st_main_v210 : fin V main_v210 = val_main_v210 (F := Ideal) (arg V main_arg0) (arg V main_arg1) (arg V main_arg2) (arg V main_arg3) (arg V main_arg4) (arg V main_arg5) (arg V main_arg6) (arg V main_arg7) (arg V main_arg8) (arg V main_arg9) (arg V main_arg10) (arg V main_arg11) (arg V main_arg12) (arg V main_arg13) := by
  rw [rd2 243 rfl, st_main_v205 V, st_main_v209 V]; rfl
theorem st_main_v211 : fin V main_v211 = val_main_v211 (F := Ideal) (arg V main_arg14) := by
  rw [rd1 244 rfl, st_arg V main_arg14]; rfl
theorem st_main_v212 : fin V main_v212 = val_main_v212 (F := Ideal) (arg V main_arg0) (arg V main_arg1) (arg V main_arg2) (arg V main_arg3) (arg V main_arg4) (arg V main_arg5) (arg V main_arg6) (arg V main_arg7) (arg V main_arg8) (arg V main_arg9) (arg V main_arg14) := by
  rw [rd2 245 rfl, st_main_v185 V, st_main_v211 V]; rfl
theorem st_main_v213 : fin V main_v213 = val_main_v213 (F := Ideal) (arg V main_arg15) := by
  rw [rd1 246 rfl, st_arg V main_arg15]; rfl
theorem st_main_v214 : fin V main_v214 = val_main_v214 (F := Ideal) (arg V main_arg15) := by
  rw [rd1 247 rfl, st_main_v213 V]; rfl

end Cert.ReferenceIdeal.Stages

end
-- ==== Proof.RStages5.lean ====
import proofs.«181595_j41618233098847_1_alg».proof.Proof.RStages4

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP Cert.HostRead

variable (V : Valuation τ sig (Elt Ideal))

theorem st_main_v215 : fin V main_v215 = val_main_v215 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) := by
  rw [rd2 248 rfl, st_main_v212 V, st_main_v214 V]; rfl
theorem st_main_v216 : fin V main_v216 = val_main_v216 (F := Ideal) (arg V main_arg16) := by
  rw [rd1 249 rfl, st_arg V main_arg16]; rfl
theorem st_main_v217 : fin V main_v217 = val_main_v217 (F := Ideal) (arg V main_arg0) (arg V main_arg1) (arg V main_arg2) (arg V main_arg3) (arg V main_arg4) (arg V main_arg5) (arg V main_arg6) (arg V main_arg7) (arg V main_arg8) (arg V main_arg9) (arg V main_arg16) := by
  rw [rd2 250 rfl, st_main_v185 V, st_main_v216 V]; rfl
theorem st_main_v218 : fin V main_v218 = val_main_v218 (F := Ideal) (arg V main_arg17) := by
  rw [rd1 251 rfl, st_arg V main_arg17]; rfl
theorem st_main_v219 : fin V main_v219 = val_main_v219 (F := Ideal) (arg V main_arg17) := by
  rw [rd1 252 rfl, st_main_v218 V]; rfl
theorem st_main_v220 : fin V main_v220 = val_main_v220 (F := Ideal) (arg V main_arg0) (arg V main_arg1) (arg V main_arg2) (arg V main_arg3) (arg V main_arg4) (arg V main_arg5) (arg V main_arg6) (arg V main_arg7) (arg V main_arg8) (arg V main_arg9) (arg V main_arg16) (arg V main_arg17) := by
  rw [rd2 253 rfl, st_main_v217 V, st_main_v219 V]; rfl
theorem st_main_v221 : fin V main_v221 = val_main_v221 (F := Ideal) (arg V main_arg0) (arg V main_arg1) (arg V main_arg2) (arg V main_arg3) (arg V main_arg4) (arg V main_arg5) (arg V main_arg6) (arg V main_arg7) (arg V main_arg8) (arg V main_arg9) (arg V main_arg16) (arg V main_arg17) := by
  rw [rd1 254 rfl, st_main_v220 V]; rfl
theorem st_main_v222 : fin V main_v222 = val_main_v222 (F := Ideal) (arg V main_arg0) (arg V main_arg1) (arg V main_arg2) (arg V main_arg3) (arg V main_arg4) (arg V main_arg5) (arg V main_arg6) (arg V main_arg7) (arg V main_arg8) (arg V main_arg9) (arg V main_arg16) (arg V main_arg17) := by
  rw [rd1 255 rfl, st_main_v221 V]; rfl
theorem st_main_cst_23 : fin V main_cst_23 = val_main_cst_23 (F := Ideal) := by
  rw [rd0 256 rfl]; rfl
theorem st_main_v223 : fin V main_v223 = val_main_v223 (F := Ideal) := by
  rw [rd1 257 rfl, st_main_cst_23 V]; rfl
theorem st_main_v224 : fin V main_v224 = val_main_v224 (F := Ideal) (arg V main_arg0) (arg V main_arg1) (arg V main_arg2) (arg V main_arg3) (arg V main_arg4) (arg V main_arg5) (arg V main_arg6) (arg V main_arg7) (arg V main_arg8) (arg V main_arg9) (arg V main_arg16) (arg V main_arg17) := by
  rw [rd2 258 rfl, st_main_v223 V, st_main_v222 V]; rfl
theorem st_main_cst_24 : fin V main_cst_24 = val_main_cst_24 (F := Ideal) := by
  rw [rd0 259 rfl]; rfl
theorem st_main_v225 : fin V main_v225 = val_main_v225 (F := Ideal) := by
  rw [rd1 260 rfl, st_main_cst_24 V]; rfl
theorem st_main_v226 : fin V main_v226 = val_main_v226 (F := Ideal) (arg V main_arg0) (arg V main_arg1) (arg V main_arg2) (arg V main_arg3) (arg V main_arg4) (arg V main_arg5) (arg V main_arg6) (arg V main_arg7) (arg V main_arg8) (arg V main_arg9) (arg V main_arg16) (arg V main_arg17) := by
  rw [rd2 261 rfl, st_main_v225 V, st_main_v224 V]; rfl
theorem st_main_v227 : fin V main_v227 = val_main_v227 (F := Ideal) (arg V main_arg0) (arg V main_arg1) (arg V main_arg2) (arg V main_arg3) (arg V main_arg4) (arg V main_arg5) (arg V main_arg6) (arg V main_arg7) (arg V main_arg8) (arg V main_arg9) (arg V main_arg16) (arg V main_arg17) := by
  rw [rd1 262 rfl, st_main_v226 V]; rfl
theorem st_main_v228 : fin V main_v228 = val_main_v228 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd2 263 rfl, st_main_v215 V, st_main_v227 V]; rfl
theorem st_main_v229 : fin V main_v229 = val_main_v229 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rdr 264 rfl, st_main_v228 V]; rfl
theorem st_main_cst_25 : fin V main_cst_25 = val_main_cst_25 (F := Ideal) := by
  rw [rd0 265 rfl]; rfl
theorem st_main_v230 : fin V main_v230 = val_main_v230 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd2 266 rfl, st_main_v229 V, st_main_cst_25 V]; rfl
theorem st_main_call2_v0 : fin V main_call2_v0 = val_main_call2_v0 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd2 (a := main_v230) (b := main_v230) (y := main_call2_v0) (f := mulf (F := Ideal)) 267 rfl, st_main_v230 V]; rfl
theorem st_main_call2_cst : fin V main_call2_cst = val_main_call2_cst (F := Ideal) := by
  rw [rd0 (y := main_call2_cst) (v := (constant (F := Ideal) S_ .f32 0x00000000#32)) 268 rfl]; rfl
theorem st_main_call2_v1 : fin V main_call2_v1 = val_main_call2_v1 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd2 (a := main_call2_v0) (b := main_call2_cst) (y := main_call2_v1) (f := (fun x v => Host.reduceAdd (F := Ideal) x v reducesTo_S256x128_S256_d1 h_S_)) 269 rfl, st_main_call2_v0 V, st_main_call2_cst V]; rfl
theorem st_main_call2_v2 : fin V main_call2_v2 = val_main_call2_v2 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd1 (x := main_call2_v1) (y := main_call2_v2) (f := (broadcastInDim S256x1 ![0] bcast_S256_S256x1_0)) 270 rfl, st_main_call2_v1 V]; rfl
theorem st_main_v231 : fin V main_v231 = val_main_v231 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd1 (x := main_call2_v2) (y := main_v231) (f := Host.sqrt (F := Ideal)) 271 rfl, st_main_call2_v2 V]; rfl
theorem st_main_cst_26 : fin V main_cst_26 = val_main_cst_26 (F := Ideal) := by
  rw [rd0 272 rfl]; rfl
theorem st_main_v232 : fin V main_v232 = val_main_v232 (F := Ideal) := by
  rw [rd1 273 rfl, st_main_cst_26 V]; rfl
theorem st_main_v233 : fin V main_v233 = val_main_v233 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd2 274 rfl, st_main_v231 V, st_main_v232 V]; rfl
theorem st_main_v234 : fin V main_v234 = val_main_v234 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd1 275 rfl, st_main_v233 V]; rfl
theorem st_main_v235 : fin V main_v235 = val_main_v235 (F := Ideal) (arg V main_arg0) (arg V main_arg1) (arg V main_arg2) (arg V main_arg3) (arg V main_arg4) (arg V main_arg5) (arg V main_arg6) (arg V main_arg7) (arg V main_arg8) (arg V main_arg9) (arg V main_arg14) (arg V main_arg15) (arg V main_arg16) (arg V main_arg17) := by
  rw [rd2 276 rfl, st_main_v230 V, st_main_v234 V]; rfl
theorem st_main_v236 : fin V main_v236 = val_main_v236 (F := Ideal) (arg V main_arg0) (arg V main_arg1) (arg V main_arg2) (arg V main_arg3) (arg V main_arg4) (arg V main_arg5) (arg V main_arg6) (arg V main_arg7) (arg V main_arg8) (arg V main_arg9) := by
  rw [rdr 277 rfl, st_main_v185 V]; rfl

end Cert.ReferenceIdeal.Stages

end
-- ==== Proof.RValue.lean ====
import proofs.«181595_j41618233098847_1_alg».proof.Proof.RStages5

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

/-- The run: each result buffer ends at its stage of the launch arguments, and the arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v236) = val_main_v236 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v210) = val_main_v210 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v235) = val_main_v235 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c =>
    ⟨(h c main_v236).trans (st_main_v236 (launchContents m c)),
     (h c main_v210).trans (st_main_v210 (launchContents m c)),
     (h c main_v235).trans (st_main_v235 (launchContents m c)),
     (h c main_arg0).trans (st_arg (launchContents m c) main_arg0),
     (h c main_arg1).trans (st_arg (launchContents m c) main_arg1),
     (h c main_arg2).trans (st_arg (launchContents m c) main_arg2),
     (h c main_arg3).trans (st_arg (launchContents m c) main_arg3),
     (h c main_arg4).trans (st_arg (launchContents m c) main_arg4),
     (h c main_arg5).trans (st_arg (launchContents m c) main_arg5),
     (h c main_arg6).trans (st_arg (launchContents m c) main_arg6),
     (h c main_arg7).trans (st_arg (launchContents m c) main_arg7),
     (h c main_arg8).trans (st_arg (launchContents m c) main_arg8),
     (h c main_arg9).trans (st_arg (launchContents m c) main_arg9),
     (h c main_arg10).trans (st_arg (launchContents m c) main_arg10),
     (h c main_arg11).trans (st_arg (launchContents m c) main_arg11),
     (h c main_arg12).trans (st_arg (launchContents m c) main_arg12),
     (h c main_arg13).trans (st_arg (launchContents m c) main_arg13),
     (h c main_arg14).trans (st_arg (launchContents m c) main_arg14),
     (h c main_arg15).trans (st_arg (launchContents m c) main_arg15),
     (h c main_arg16).trans (st_arg (launchContents m c) main_arg16),
     (h c main_arg17).trans (st_arg (launchContents m c) main_arg17)⟩)
    (run_after m ρ)

end Cert.ReferenceIdeal.Stages

end
-- ==== Proof.Spec.lean ====
import Idealize.ShloMosaic.PureOps.Ideal
import Idealize.ShloMosaic.Lib.ValueIdx

noncomputable section

open scoped BigOperators

namespace Cert.Gnn

open Idealize.ShloMosaic

/-- The float literal 1. -/
abbrev one32 : EReal := Ideal.ofBits .f32 0x3F800000#32

/-- The float literal nearest 1e-12: the floor under a Euclidean length. -/
abbrev eps32 : EReal := Ideal.ofBits .f32 0x2B8CBCCC#32

/-- Feature j in the first, second and third 128-wide gate of a 384-wide pre-activation. -/
def g0 (j : Fin 128) : Fin 384 := ⟨j.val, by omega⟩
def g1 (j : Fin 128) : Fin 384 := ⟨128 + j.val, by omega⟩
def g2 (j : Fin 128) : Fin 384 := ⟨256 + j.val, by omega⟩

/-- Input feature k of the first and of the second endpoint among a message's 256 input features. -/
def h0 (k : Fin 128) : Fin 256 := ⟨k.val, by omega⟩
def h1 (k : Fin 128) : Fin 256 := ⟨128 + k.val, by omega⟩

/-- A node index as read: a negative one counts from the end of the table. -/
def normIdx (x : BitVec 32) : BitVec 32 :=
  Scalar.select (IntOp.cmpi .slt x 0#32) (IntOp.addi x 32768#32) x

/-- The table row a read at index x lands on: normalised, signed, clamped into the table. -/
def rowOf (x : BitVec 32) : Fin 32768 := ⟨min (normIdx x).toInt.toNat (32768 - 1), by omega⟩

/-- The gated recurrent cell at feature j, from the input-side and state-side pre-activations: (1 − z)·n + z·h. -/
def gruCell (gi gh : Fin 384 → EReal) (h : EReal) (j : Fin 128) : EReal :=
  (one32 - Ideal.logistic (gi (g1 j) + gh (g1 j)))
      * Ideal.tanh (gi (g2 j) + Ideal.logistic (gi (g0 j) + gh (g0 j)) * gh (g2 j))
    + Ideal.logistic (gi (g1 j) + gh (g1 j)) * h

/-- A row divided by its Euclidean length, the length floored at `eps32`. -/
def l2row {n : Nat} (x : Fin n → EReal) (j : Fin n) : EReal :=
  Ideal.div (x j) (max (Ideal.sqrt (∑ k : Fin n, x k * x k)) eps32)

/-- One edge's message: the affine map of one endpoint's features followed by the other's. -/
def msg {E : Nat} (A B : Fin E → Fin 128 → EReal) (W : Fin 256 → Fin 256 → EReal) (b : Fin 256 → EReal)
    (e : Fin E) (o : Fin 256) : EReal :=
  (∑ k : Fin 128, A e k * W o (h0 k)) + (∑ k : Fin 128, B e k * W o (h1 k)) + b o

/-- The same message with the map given as its two 128-row halves, input feature first. -/
def msg2 {E : Nat} (A B : Fin E → Fin 128 → EReal) (wa wb : Fin 128 → Fin 256 → EReal) (b : Fin 256 → EReal)
    (e : Fin E) (o : Fin 256) : EReal :=
  (∑ k : Fin 128, A e k * wa k o) + (∑ k : Fin 128, B e k * wb k o) + b o

theorem msg_eq_msg2 {E : Nat} (A B : Fin E → Fin 128 → EReal) (W : Fin 256 → Fin 256 → EReal) (b : Fin 256 → EReal)
    (e : Fin E) (o : Fin 256) :
    msg A B W b e o = msg2 A B (fun k o => W o (h0 k)) (fun k o => W o (h1 k)) b e o := rfl

/-- What node n receives: the forward messages of edges ending at n plus the reverse messages of edges starting at n. -/
def agg {E : Nat} (s t : Fin E → BitVec 32) (Fw Rv : Fin E → Fin 256 → EReal) (n : Fin 32768) (o : Fin 256) : EReal :=
  (∑ e ∈ Finset.univ.filter (fun e : Fin E => (t e).toInt = (n.val : Int)), Fw e o)
    + (∑ e ∈ Finset.univ.filter (fun e : Fin E => (s e).toInt = (n.val : Int)), Rv e o)

/-- The cell applied to one node from its received sum and its features, the maps given input feature first. -/
def gruRow (ag : Fin 256 → EReal) (hf : Fin 128 → EReal) (wih : Fin 256 → Fin 384 → EReal) (bih : Fin 384 → EReal)
    (whh : Fin 128 → Fin 384 → EReal) (bhh : Fin 384 → EReal) (j : Fin 128) : EReal :=
  gruCell (fun q => (∑ k : Fin 256, ag k * wih k q) + bih q) (fun q => (∑ k : Fin 128, hf k * whh k q) + bhh q) (hf j) j

/-- One layer: the new feature j of node n. -/
def layer {E : Nat} (hf : Fin 32768 → Fin 128 → EReal) (s t : Fin E → BitVec 32)
    (W : Fin 256 → Fin 256 → EReal) (b : Fin 256 → EReal) (Wr : Fin 256 → Fin 256 → EReal) (br : Fin 256 → EReal)
    (Wih : Fin 384 → Fin 256 → EReal) (bih : Fin 384 → EReal) (Whh : Fin 384 → Fin 128 → EReal) (bhh : Fin 384 → EReal)
    (n : Fin 32768) (j : Fin 128) : EReal :=
  gruCell
    (fun q => (∑ k : Fin 256,
        agg s t (msg (fun e => hf (rowOf (s e))) (fun e => hf (rowOf (t e))) W b)
                (msg (fun e => hf (rowOf (t e))) (fun e => hf (rowOf (s e))) Wr br) n k * Wih q k) + bih q)
    (fun q => (∑ k : Fin 128, hf n k * Whh q k) + bhh q)
    (hf n j) j

theorem layer_eq_gruRow {E : Nat} (hf : Fin 32768 → Fin 128 → EReal) (s t : Fin E → BitVec 32)
    (W : Fin 256 → Fin 256 → EReal) (b : Fin 256 → EReal) (Wr : Fin 256 → Fin 256 → EReal) (br : Fin 256 → EReal)
    (Wih : Fin 384 → Fin 256 → EReal) (bih : Fin 384 → EReal) (Whh : Fin 384 → Fin 128 → EReal) (bhh : Fin 384 → EReal)
    (n : Fin 32768) (j : Fin 128) :
    layer hf s t W b Wr br Wih bih Whh bhh n j
      = gruRow (agg s t (msg (fun e => hf (rowOf (s e))) (fun e => hf (rowOf (t e))) W b)
                  (msg (fun e => hf (rowOf (t e))) (fun e => hf (rowOf (s e))) Wr br) n)
          (hf n) (fun k q => Wih q k) bih (fun k q => Whh q k) bhh j := rfl

/-- The gated sum over a graph's 128 nodes, before normalisation. -/
def readSum (x : Fin 256 → Fin 128 → Fin 128 → EReal) (fW : Fin 128 → Fin 128 → EReal) (fb : Fin 128 → EReal)
    (gW : Fin 128 → EReal) (gb : EReal) (g : Fin 256) (f : Fin 128) : EReal :=
  ∑ i : Fin 128, ((∑ k : Fin 128, x g i k * fW f k) + fb f) * Ideal.logistic ((∑ k : Fin 128, x g i k * gW k) + gb)

/-- The readout, normalised. -/
def readout (x : Fin 256 → Fin 128 → Fin 128 → EReal) (fW : Fin 128 → Fin 128 → EReal) (fb : Fin 128 → EReal)
    (gW : Fin 128 → EReal) (gb : EReal) (g : Fin 256) (f : Fin 128) : EReal :=
  l2row (readSum x fW fb gW gb g) f

end Cert.Gnn

end
-- ==== Proof.LibTakeRows.lean ====
import Idealize.ShloMosaic.Lib.ValueIdx
import Idealize.ShloMosaic.Lib.Pipeline.Value

noncomputable section

namespace Cert.TakeRows

open Idealize.ShloMosaic Idealize.ShloMosaic.ValueIdx

variable {α : Type}

-- Rows are start-indexed and collapsed, columns are the one offset axis: the operand index of result (p, q) is, on the rows, start index p read signed and clamped, and on the columns q.
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  set D : GatherDims ⟨2, ![R, C]⟩ ⟨2, ![M, 1]⟩ ⟨2, ![M, C]⟩ := ⟨[1], [0], [], sb, [0], 1, ss, wf⟩
  have hm : (0 : Fin 2) ∈ D.startIndexMap := List.mem_singleton.mpr rfl
  have hn : (1 : Fin 2) ∉ D.startIndexMap := by show (1 : Fin 2) ∉ ([0] : List (Fin 2)); decide
  refine congrArg x (funext fun a => Fin.ext ?_)
  match a with
  | ⟨0, _⟩ =>
    show D.start (ix2 p q) idx 0 + D.batchCoord (ix2 p q) 0 + D.offCoord (ix2 p q) 0 = min _ (R - 1)
    rw [D.batchCoord_eq_zero _ _ List.not_mem_nil, D.offCoord_eq_zero _ _ fun h => ((D.mem_sKept _).mp h).1 hm]
    simp only [Nat.add_zero]
    unfold GatherDims.start
    rw [dif_pos hm]
    have hsi : D.siIdx (ix2 p q) ⟨List.idxOf (0 : Fin 2) D.startIndexMap, List.idxOf_lt_length_iff.2 hm⟩ = ix2 p (0 : Fin 1) := by
      funext b; refine Fin.ext ?_
      match b with
      | ⟨0, _⟩ => rfl
      | ⟨1, _⟩ => rfl
    rw [hsi]
    show min _ (R - ss 0) = _
    rw [show ss 0 = 1 from D.slice_collapsed 0 hm]
  | ⟨1, _⟩ =>
    show D.start (ix2 p q) idx 1 + D.batchCoord (ix2 p q) 1 + D.offCoord (ix2 p q) 1 = q.val
    rw [D.batchCoord_eq_zero _ _ List.not_mem_nil]
    unfold GatherDims.start GatherDims.offCoord
    rw [dif_neg hn, dif_pos ((D.mem_sKept _).mpr ⟨hn, List.not_mem_nil⟩)]
    simp only [Nat.add_zero, Nat.zero_add]
    rfl

end Cert.TakeRows

end
-- ==== Proof.KRegion0.lean ====
import proofs.«181595_j41618233098847_1_alg».proof.Proof.Gen.KernelIdeal.Frame
import proofs.«181595_j41618233098847_1_alg».proof.Proof.Spec
import Idealize.ShloMosaic.Lib.StackMember
import Idealize.ShloMosaic.Lib.ValueLayout

noncomputable section

open scoped BigOperators

namespace Cert.Gnn.K

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

namespace Msg0

-- Row p of a block against column o of a map: the contraction runs over the 128 features they share.
theorem dot_apply (a : FVec Ideal S4096x128 .f32) (w : FVec Ideal S128x256 .f32) (p : Fin 4096) (o : Fin 256) :
    matmul dot_S4096x128_S128x256_S4096x256_1_0_0_1_n_n none a w (constant (F := Ideal) S4096x256 .f32 0x00000000#32) (ix2 p o)
      = ∑ k : Fin 128, a (ix2 p k) * w (ix2 k o) := by
  rw [matmul_zero_eq_dotGeneral]
  exact StackMember.dotGeneral_plain_apply none a w p o

-- The payload is linear in each block's row: two products and the bias row, entry by entry.
theorem pay_apply (x0 x1 : Vec Ideal S4096x128 .f32) (wa wb : Vec Ideal S128x256 .f32) (b : Vec Ideal S1x256 .f32)
    (p : Fin 4096) (o : Fin 256) :
    k0_pay3 x0 x1 wa wb b (ix2 p o)
      = msg2 (fun p k => x0 (ix2 p k)) (fun p k => x1 (ix2 p k)) (fun k o => wa (ix2 k o)) (fun k o => wb (ix2 k o))
          (fun o => b (ix2 (0 : Fin 1) o)) p o := by
  unfold k0_pay3 k0_pay1 k0_pay2 msg2
  simp only [shapeCast_self, addf_apply, dot_apply, broadcastTo_1b_ab_apply]

-- Entry (e, o) of an output: row e of the two feature arrays through the two maps, plus the bias row.
def msgArr (A B : Vec Ideal S262144x128 .f32) (wa wb : Vec Ideal S128x256 .f32) (b : Vec Ideal S1x256 .f32) :
    Vec Ideal S262144x256 .f32 := fun i =>
  msg2 (fun e k => A (ix2 e k)) (fun e k => B (ix2 e k)) (fun k o => wa (ix2 k o)) (fun k o => wb (ix2 k o))
    (fun o => b (ix2 (0 : Fin 1) o)) ⟨(i 0).val, idx2_lt0 i⟩ ⟨(i 1).val, idx2_lt1 i⟩

theorem whole_offsets : (![0, 0] : Fin 2 → Nat) = fun _ => 0 := funext fun a => by fin_cases a <;> rfl

-- Over the 64 points a feature window and an output window sit at block row t.
theorem idx : ∀ t : Fin cfg0.N, t.val < 64 ∧ win0_0.index t 0 = t.val ∧ win0_8.index t 0 = t.val :=
  (by decide +kernel : ∀ t : Fin grid0.N, _)

-- Row p of a feature block or an output block at point t is row 4096·t + p of its array, the column kept.
theorem place (t : Fin cfg0.N) (p : Fin 4096) (e : Fin 262144) (he : e.val = 4096 * t.val + p.val) :
    (∀ k : Fin 128, (win0_0.rect t).emb (ix2 p k) = (ix2 e k : S262144x128.Idx))
    ∧ ∀ o : Fin 256, (win0_8.blk t).view.emb (ix2 p o) = (ix2 e o : S262144x256.Idx) := by
  obtain ⟨-, h0, h8⟩ := idx t
  refine ⟨fun k => Shape.idx_ext₂ ?_ (show 0 * 128 + 1 * k.val = k.val by omega),
    fun o => Shape.idx_ext₂ ?_ (show 0 * 256 + 1 * o.val = o.val by omega)⟩
  · show win0_0.index t 0 * 4096 + 1 * p.val = e.val; omega
  · show win0_8.index t 0 * 4096 + 1 * p.val = e.val; omega

-- Row e lies in the block of point e / 4096.
theorem mem (e : Fin 262144) (o : Fin 256) : ∃ t : Fin cfg0.N, (ix2 e o : S262144x256.Idx) ∈ (win0_8.blk t).view.set := by
  have hN : cfg0.N = 64 := N_0
  have := e.isLt
  exact ⟨_, (place ⟨e.val / 4096, by omega⟩ ⟨e.val % 4096, by omega⟩ e
    (by show e.val = 4096 * (e.val / 4096) + e.val % 4096; omega)).2 o ▸ View.emb_mem_set _ _⟩

-- What the body leaves at row p of an output block is row e of the array function, once row p of each feature block is row e of its array.
theorem out_apply (x0 x1 : Vec Ideal S4096x128 .f32) (x2 x3 : Vec Ideal S128x256 .f32) (x6 : Vec Ideal S1x256 .f32)
    (A B : Vec Ideal S262144x128 .f32) (p : Fin 4096) (o : Fin 256) (e : Fin 262144)
    (h0 : ∀ k : Fin 128, x0 (ix2 p k) = A (ix2 e k)) (h1 : ∀ k : Fin 128, x1 (ix2 p k) = B (ix2 e k)) :
    out0_8 x0 x1 x2 x3 x2 x3 x6 x6 (ix2 p o) = msgArr A B x2 x3 x6 (ix2 e o) := by
  unfold out0_8
  rw [View.canon_unit_zero whole_offsets]
  simp only [View.ld_unit_zero (S := S4096x128) whole_offsets, View.ld_unit_zero (S := S128x256) whole_offsets,
    View.ld_unit_zero (S := S1x256) whole_offsets]
  rw [pay_apply]
  unfold msgArr msg2
  simp only [h0, h1]

-- The same with each block read off its array at point t: the features at the point's rows, the maps and the bias row whole.
theorem blk_apply (A B : Vec Ideal S262144x128 .f32) (wa wb : Vec Ideal S128x256 .f32) (b : Vec Ideal S1x256 .f32)
    (t : Fin cfg0.N) (j : S4096x256.Idx) :
    out0_8 (View.ld A (win0_0.rect t)) (View.ld B (win0_0.rect t)) (View.ld wa (win0_2.rect t)) (View.ld wb (win0_2.rect t))
        (View.ld wa (win0_2.rect t)) (View.ld wb (win0_2.rect t)) (View.ld b (win0_6.rect t)) (View.ld b (win0_6.rect t)) j
      = msgArr A B wa wb b ((win0_8.blk t).view.emb j) := by
  obtain ⟨p, o, rfl⟩ : ∃ (p : Fin 4096) (o : Fin 256), j = ix2 p o := ⟨j 0, j 1, eq_ix2 j⟩
  have ht := (idx t).1
  obtain ⟨q0, q8⟩ := place t p ⟨4096 * t.val + p.val, by omega⟩ rfl
  have hw : ∀ X : Vec Ideal S128x256 .f32, View.ld X (win0_2.rect t) = X :=
    View.ld_unit_zero (funext fun a => match a with | ⟨0, _⟩ => rfl | ⟨1, _⟩ => rfl) _
  have hb : View.ld b (win0_6.rect t) = b :=
    View.ld_unit_zero (funext fun a => match a with | ⟨0, _⟩ => rfl | ⟨1, _⟩ => rfl) _ _
  rw [q8 o, hw, hw, hb]
  exact out_apply _ _ _ _ _ _ _ p o _ (fun k => congrArg A (q0 k)) (fun k => congrArg B (q0 k))

end Msg0

-- What point t writes to an output window is the array function read through the point's block.
theorem Msg0.wr (t : Fin cfg0.N) :
    (dat0 V c).flushed 8 t = ((cfg0.win 8).blk t).view.read (Elt Ideal) (Msg0.msgArr (V c main_v11) (V c main_v18) (V c main_v22) (V c main_v26) (V c main_v39))
    ∧ (dat0 V c).flushed 9 t = ((cfg0.win 9).blk t).view.read (Elt Ideal) (Msg0.msgArr (V c main_v18) (V c main_v11) (V c main_v30) (V c main_v34) (V c main_v40)) := by
  constructor <;> funext j
  · show (dat0 V c).after 8 t j = _
    rw [after0_8]
    exact Msg0.blk_apply (V c main_v11) (V c main_v18) (V c main_v22) (V c main_v26) (V c main_v39) t j
  · show (dat0 V c).after 9 t j = _
    rw [after0_9]
    exact Msg0.blk_apply (V c main_v18) (V c main_v11) (V c main_v30) (V c main_v34) (V c main_v40) t j

theorem region0_fwd (e : Fin 262144) (o : Fin 256) :
    (dat0 V c).arrAt 8 cfg0.N (ix2 e o)
      = msg2 (fun e k => V c main_v11 (ix2 e k)) (fun e k => V c main_v18 (ix2 e k))
          (fun k o => V c main_v22 (ix2 k o)) (fun k o => V c main_v26 (ix2 k o))
          (fun o => V c main_v39 (ix2 (0 : Fin 1) o)) e o := by
  obtain ⟨t, m⟩ := Msg0.mem e o
  exact (dat0 V c).arrAt_apply_of_mem 8 _ (fun t _ => (Msg0.wr V c t).1) _ t _ t.isLt (flush0_8 t) m

theorem region0_rev (e : Fin 262144) (o : Fin 256) :
    (dat0 V c).arrAt 9 cfg0.N (ix2 e o)
      = msg2 (fun e k => V c main_v18 (ix2 e k)) (fun e k => V c main_v11 (ix2 e k))
          (fun k o => V c main_v30 (ix2 k o)) (fun k o => V c main_v34 (ix2 k o))
          (fun o => V c main_v40 (ix2 (0 : Fin 1) o)) e o := by
  obtain ⟨t, m⟩ := Msg0.mem e o
  exact (dat0 V c).arrAt_apply_of_mem 9 _ (fun t _ => (Msg0.wr V c t).2) _ t _ t.isLt (flush0_9 t) m

end Cert.Gnn.K

end
-- ==== Proof.KRegion1.lean ====
import proofs.«181595_j41618233098847_1_alg».proof.Proof.Gen.KernelIdeal.Frame
import proofs.«181595_j41618233098847_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

set_option maxRecDepth 16384

noncomputable section

open scoped BigOperators

namespace Cert.Gnn.K

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

-- A product into the zero accumulator is the plain product: entry (p, q) sums over the contracted coordinate.
theorem mm_apply_r1 {m k n : Nat} (x : FVec Ideal ⟨2, ![m, k]⟩ .f32) (w : FVec Ideal ⟨2, ![k, n]⟩ .f32) (p : Fin m) (q : Fin n) :
    matmul (DotDims.plain m k n) none x w (constant (F := Ideal) ⟨2, ![m, n]⟩ .f32 0x00000000#32) (ix2 p q)
      = ∑ l : Fin k, x (ix2 p l) * w (ix2 l q) :=
  (congrFun (matmul_zero_eq_dotGeneral _ none x w) _).trans (StackMember.dotGeneral_plain_apply none x w p q)

theorem dot_ih_r1 : dot_S4096x256_S256x384_S4096x384_1_0_0_1_n_n = DotDims.plain 4096 256 384 := rfl
theorem dot_hh_r1 : dot_S4096x128_S128x384_S4096x384_1_0_0_1_n_n = DotDims.plain 4096 128 384 := rfl

theorem logistic_apply_r1 {s : Shape} {φ : FTy} (a : FVec Ideal s φ) (i : s.Idx) : logistic a i = Ideal.logistic (a i) := rfl
theorem tanh_apply_r1 {s : Shape} {φ : FTy} (a : FVec Ideal s φ) (i : s.Idx) : tanh a i = Ideal.tanh (a i) := rfl

-- Row p of what the body stores is the cell of row p of the two row-blocked operands.
theorem pay_apply_r1 (x0 : Vec Ideal S4096x256 .f32) (x1 : Vec Ideal S4096x128 .f32) (w : Vec Ideal S256x384 .f32)
    (b : Vec Ideal S1x384 .f32) (w' : Vec Ideal S128x384 .f32) (b' : Vec Ideal S1x384 .f32) (p : Fin 4096) (j : Fin 128) :
    k1_pay1 x0 x1 w b w' b' (ix2 p j)
      = gruRow (fun k => x0 (ix2 p k)) (fun k => x1 (ix2 p k)) (fun k q => w (ix2 k q)) (fun q => b (ix2 (0 : Fin 1) q))
          (fun k q => w' (ix2 k q)) (fun q => b' (ix2 (0 : Fin 1) q)) j := by
  unfold k1_pay1
  simp only [dot_ih_r1, dot_hh_r1, shapeCast_self, addf_apply, mulf_apply, subf_apply, logistic_apply_r1, tanh_apply_r1, broadcast_apply,
    mm_apply_r1, broadcastTo_1b_ab_apply,
    slice2_axis1_apply 0 _ slices_S4096x384_o0_0_S4096x128 _ _ (g0 _) (Nat.zero_add _).symm,
    slice2_axis1_apply 128 _ slices_S4096x384_o0_128_S4096x128 _ _ (g1 _) rfl, slice2_axis1_apply 256 _ slices_S4096x384_o0_256_S4096x128 _ _ (g2 _) rfl]
  rfl

theorem hz_r1 : (![0, 0] : Fin 2 → Nat) = fun _ => 0 := funext fun a => by fin_cases a <;> rfl

-- The cell applied to every node of the arrays the region enters with.
def out_r1 : S32768x128.Idx → EReal := fun i =>
  gruRow (fun k => V c main_v48 (ix2 (⟨(i 0).val, idx2_lt0 i⟩ : Fin 32768) k)) (fun k => V c main_v0 (ix2 (⟨(i 0).val, idx2_lt0 i⟩ : Fin 32768) k))
    (fun k q => V c main_v51 (ix2 k q)) (fun q => V c main_v59 (ix2 (0 : Fin 1) q)) (fun k q => V c main_v54 (ix2 k q))
    (fun q => V c main_v60 (ix2 (0 : Fin 1) q)) (⟨(i 1).val, idx2_lt1 i⟩ : Fin 128)

theorem gruRow_congr_r1 {ag ag' : Fin 256 → EReal} {hf hf' : Fin 128 → EReal} {wih wih' : Fin 256 → Fin 384 → EReal}
    {bih bih' : Fin 384 → EReal} {whh whh' : Fin 128 → Fin 384 → EReal} {bhh bhh' : Fin 384 → EReal} {j j' : Fin 128}
    (h0 : ag = ag') (h1 : hf = hf') (h2 : wih = wih') (h3 : bih = bih') (h4 : whh = whh') (h5 : bhh = bhh') (h6 : j = j') :
    gruRow ag hf wih bih whh bhh j = gruRow ag' hf' wih' bih' whh' bhh' j' := by
  subst h0 h1 h2 h3 h4 h5 h6; rfl

-- Block t of a row-blocked array starts at row 4096·t; a weight's block is the whole array.
theorem idx_facts_r1 : ∀ t : Fin cfg1.N,
    win1_0.index t = ![t.val, 0] ∧ win1_1.index t = ![t.val, 0] ∧ win1_6.index t = ![t.val, 0]
    ∧ (∀ a, win1_2.index t a = 0) ∧ (∀ a, win1_3.index t a = 0) ∧ (∀ a, win1_4.index t a = 0) ∧ (∀ a, win1_5.index t a = 0) :=
  (by decide +kernel : ∀ t : Fin grid1.N, _)

-- The block of point t is block t of the cell applied to the arrays the region enters with.
theorem flushed_eq_r1 (t : Fin cfg1.N) :
    (dat1 V c).flushed 6 t = ((cfg1.win 6).blk t).view.read (Elt Ideal)
      (out_r1 V c) := by
  show (cfg1.win 6).cut (grid1.coords t) ((dat1 V c).after 6 t) = _
  rw [after1_6]
  unfold out1_6
  rw [View.canon_unit_zero hz_r1]
  simp only [View.ld_unit_zero (S := S4096x256) hz_r1, View.ld_unit_zero (S := S4096x128) hz_r1, View.ld_unit_zero (S := S256x384) hz_r1,
    View.ld_unit_zero (S := S128x384) hz_r1, View.ld_unit_zero (S := S1x384) hz_r1]
  funext y
  obtain ⟨p, j, rfl⟩ : ∃ (p : Fin 4096) (j : Fin 128), y = ix2 p j := ⟨y 0, y 1, eq_ix2 y⟩
  show k1_pay1 (iblk1 V c 0 t) (iblk1 V c 1 t) (iblk1 V c 2 t) (iblk1 V c 4 t) (iblk1 V c 3 t) (iblk1 V c 5 t) (ix2 p j)
    = out_r1 V c (((cfg1.win 6).blk t).view.emb (ix2 p j))
  rw [pay_apply_r1]
  have e0 := win1_6.rect_emb_val t (ix2 p j) 0
  have e1 := win1_6.rect_emb_val t (ix2 p j) 1
  rw [(idx_facts_r1 t).2.2.1] at e0 e1
  refine gruRow_congr_r1 (funext fun k => ?_) (funext fun k => ?_) (funext fun k => funext fun q => ?_) (funext fun q => ?_)
    (funext fun k => funext fun q => ?_) (funext fun q => ?_) (Fin.ext ?_)
  · show V c main_v48 _ = _
    refine congrArg (V c main_v48) (funext fun a => Fin.ext ((win1_0.rect_emb_val t _ a).trans ?_))
    rw [(idx_facts_r1 t).1]
    match a with
    | ⟨0, _⟩ => exact e0.symm
    | ⟨1, _⟩ => exact Nat.zero_add _
  · show V c main_v0 _ = _
    refine congrArg (V c main_v0) (funext fun a => Fin.ext ((win1_1.rect_emb_val t _ a).trans ?_))
    rw [(idx_facts_r1 t).2.1]
    match a with
    | ⟨0, _⟩ => exact e0.symm
    | ⟨1, _⟩ => exact Nat.zero_add _
  · exact congrArg (V c main_v51) (funext fun a => Fin.ext (win1_2.rect_emb_val_of_index_zero t a ((idx_facts_r1 t).2.2.2.1 a) _))
  · exact congrArg (V c main_v59) (funext fun a => Fin.ext (win1_4.rect_emb_val_of_index_zero t a ((idx_facts_r1 t).2.2.2.2.2.1 a) _))
  · exact congrArg (V c main_v54) (funext fun a => Fin.ext (win1_3.rect_emb_val_of_index_zero t a ((idx_facts_r1 t).2.2.2.2.1 a) _))
  · exact congrArg (V c main_v60) (funext fun a => Fin.ext (win1_5.rect_emb_val_of_index_zero t a ((idx_facts_r1 t).2.2.2.2.2.2 a) _))
  · exact (e1.trans (Nat.zero_add _)).symm

-- Row r of the output lies in block r / 4096.
theorem cover_r1 (i : S32768x128.Idx) :
    ∃ t : Fin cfg1.N, (cfg1.win 6).flush t = true ∧ i ∈ ((cfg1.win 6).blk t).view.set := by
  have hi0 := idx2_lt0 i
  have hi1 := idx2_lt1 i
  have ht : (i 0).val / 4096 < cfg1.N := Nat.lt_of_lt_of_eq (by omega : (i 0).val / 4096 < 8) N_1.symm
  refine ⟨⟨_, ht⟩, flush1_6 _, ?_⟩
  show i ∈ ((View.whole main_v61).slice (win1_6.rect ⟨_, ht⟩)).set
  rw [View.set_slice_whole, Rect.mem_set_unit]
  intro a
  have e := (idx_facts_r1 ⟨_, ht⟩).2.2.1
  match a with
  | ⟨0, _⟩ => show win1_6.index _ 0 * 4096 ≤ (i 0).val ∧ (i 0).val < win1_6.index _ 0 * 4096 + 4096; rw [e]; show (i 0).val / 4096 * 4096 ≤ _ ∧ _ < (i 0).val / 4096 * 4096 + 4096; omega
  | ⟨1, _⟩ => show win1_6.index _ 1 * 128 ≤ (i 1).val ∧ (i 1).val < win1_6.index _ 1 * 128 + 128; rw [e]; show 0 * 128 ≤ _ ∧ _ < 0 * 128 + 128; omega

theorem region1_out (n : Fin 32768) (j : Fin 128) :
    (dat1 V c).arrAt 6 cfg1.N (ix2 n j)
      = gruRow (fun k => V c main_v48 (ix2 n k)) (fun k => V c main_v0 (ix2 n k))
          (fun k q => V c main_v51 (ix2 k q)) (fun q => V c main_v59 (ix2 (0 : Fin 1) q))
          (fun k q => V c main_v54 (ix2 k q)) (fun q => V c main_v60 (ix2 (0 : Fin 1) q)) j :=
  congrFun ((dat1 V c).arrAt_eq_of_cover 6 _ (fun t _ => flushed_eq_r1 V c t) cover_r1) (ix2 n j)

end Cert.Gnn.K

end
-- ==== Proof.KRegion2.lean ====
import proofs.«181595_j41618233098847_1_alg».proof.Proof.KRegion0

noncomputable section

namespace Cert.Gnn.K

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

-- What point t writes to an output window is the array function read through the point's block.
theorem Msg2.wr (t : Fin cfg2.N) :
    (dat2 V c).flushed 8 t = ((cfg2.win 8).blk t).view.read (Elt Ideal) (Msg0.msgArr (V c main_v68) (V c main_v75) (V c main_v79) (V c main_v83) (V c main_v96))
    ∧ (dat2 V c).flushed 9 t = ((cfg2.win 9).blk t).view.read (Elt Ideal) (Msg0.msgArr (V c main_v75) (V c main_v68) (V c main_v87) (V c main_v91) (V c main_v97)) := by
  constructor <;> funext j
  · show (dat2 V c).after 8 t j = _
    rw [after2_8]
    exact Msg0.blk_apply (V c main_v68) (V c main_v75) (V c main_v79) (V c main_v83) (V c main_v96) t j
  · show (dat2 V c).after 9 t j = _
    rw [after2_9]
    exact Msg0.blk_apply (V c main_v75) (V c main_v68) (V c main_v87) (V c main_v91) (V c main_v97) t j

theorem region2_fwd (e : Fin 262144) (o : Fin 256) :
    (dat2 V c).arrAt 8 cfg2.N (ix2 e o)
      = msg2 (fun e k => V c main_v68 (ix2 e k)) (fun e k => V c main_v75 (ix2 e k))
          (fun k o => V c main_v79 (ix2 k o)) (fun k o => V c main_v83 (ix2 k o))
          (fun o => V c main_v96 (ix2 (0 : Fin 1) o)) e o := by
  obtain ⟨t, m⟩ := Msg0.mem e o
  exact (dat2 V c).arrAt_apply_of_mem 8 _ (fun t _ => (Msg2.wr V c t).1) _ t _ t.isLt (flush2_8 t) m

theorem region2_rev (e : Fin 262144) (o : Fin 256) :
    (dat2 V c).arrAt 9 cfg2.N (ix2 e o)
      = msg2 (fun e k => V c main_v75 (ix2 e k)) (fun e k => V c main_v68 (ix2 e k))
          (fun k o => V c main_v87 (ix2 k o)) (fun k o => V c main_v91 (ix2 k o))
          (fun o => V c main_v97 (ix2 (0 : Fin 1) o)) e o := by
  obtain ⟨t, m⟩ := Msg0.mem e o
  exact (dat2 V c).arrAt_apply_of_mem 9 _ (fun t _ => (Msg2.wr V c t).2) _ t _ t.isLt (flush2_9 t) m

end Cert.Gnn.K

end
-- ==== Proof.KRegion3.lean ====
import proofs.«181595_j41618233098847_1_alg».proof.Proof.KRegion1

set_option maxRecDepth 16384

noncomputable section

open scoped BigOperators

namespace Cert.Gnn.K

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

-- The cell's block is computed by the same operations as region 1's stored block.
theorem pay2_eq_r3 (x0 : Vec Ideal S4096x256 .f32) (x1 : Vec Ideal S4096x128 .f32) (w : Vec Ideal S256x384 .f32)
    (b : Vec Ideal S1x384 .f32) (w' : Vec Ideal S128x384 .f32) (b' : Vec Ideal S1x384 .f32) :
    k3_pay2 x0 x1 w b w' b' = k1_pay1 x0 x1 w b w' b' := rfl

theorem sqrt_apply_r3 {s : Shape} {φ : FTy} (a : FVec Ideal s φ) (i : s.Idx) : sqrt a i = Ideal.sqrt (a i) := rfl

theorem col_cast_apply_r3 (u : FVec Ideal S4096 .f32) (p : Fin 4096) (z : Fin 1) :
    shapeCast S4096x1 u shapeCasts_S4096_S4096x1 (ix2 p z) = u (ix1 p) :=
  shapeCast_apply u shapeCasts_S4096_S4096x1 _ _ (by
    have hz0 : z.val = 0 := by omega
    rw [Shape.rowMajor_val_two, Shape.rowMajor_val_one]
    show p.val = p.val * 1 + z.val
    rw [hz0]; omega)

theorem col_bcast_apply_r3 (v : FVec Ideal S4096x1 .f32) (p : Fin 4096) (j : Fin 128) :
    broadcastTo S4096x128 v broadcasts_S4096x1_S4096x128 (ix2 p j) = v (ix2 p (0 : Fin 1)) :=
  broadcastTo_apply v broadcasts_S4096x1_S4096x128 (ix2 p j) (ix2 p (0 : Fin 1)) fun ax => by
    match ax with
    | ⟨0, _⟩ => rfl
    | ⟨1, _⟩ => rfl

theorem len_apply_r3 (x0 : Vec Ideal S4096x256 .f32) (x1 : Vec Ideal S4096x128 .f32) (w : Vec Ideal S256x384 .f32)
    (b : Vec Ideal S1x384 .f32) (w' : Vec Ideal S128x384 .f32) (b' : Vec Ideal S1x384 .f32) (p : Fin 4096) :
    k3_pay3 x0 x1 w b w' b' (ix2 p (0 : Fin 1))
      = max (Ideal.sqrt (∑ k : Fin 128, k3_pay2 x0 x1 w b w' b' (ix2 p k) * k3_pay2 x0 x1 w b w' b' (ix2 p k))) eps32 := by
  unfold k3_pay3
  generalize k3_pay2 x0 x1 w b w' b' = P
  simp only [maximumf_apply, sqrt_apply_r3, broadcast_apply, col_cast_apply_r3]
  refine congrArg (fun s => max (Ideal.sqrt s) eps32) ?_
  exact (Ideal.multiReduction_add_single (mulf P P) 0x00000000#32 reduces_S4096x128_S4096 (.inl rfl) rfl (ix1 p)).trans
    (Finset.sum_congr rfl fun _ _ => congrArg (mulf P P) (funext fun a => match a with | ⟨0, _⟩ => rfl | ⟨1, _⟩ => rfl))

-- The cell applied to every node of the arrays the region enters with, each row divided by its floored length.
def out_r3 : S32768x128.Idx → EReal := fun i =>
  l2row (gruRow (fun k => V c main_v105 (ix2 (⟨(i 0).val, idx2_lt0 i⟩ : Fin 32768) k)) (fun k => V c main_v61 (ix2 (⟨(i 0).val, idx2_lt0 i⟩ : Fin 32768) k))
    (fun k q => V c main_v108 (ix2 k q)) (fun q => V c main_v116 (ix2 (0 : Fin 1) q)) (fun k q => V c main_v111 (ix2 k q))
    (fun q => V c main_v117 (ix2 (0 : Fin 1) q))) (⟨(i 1).val, idx2_lt1 i⟩ : Fin 128)

-- Row p, feature j of what the body stores: the cell's entry divided by the row's floored length.
theorem store_apply_r3 (x0 : Vec Ideal S4096x256 .f32) (x1 : Vec Ideal S4096x128 .f32) (w : Vec Ideal S256x384 .f32)
    (b : Vec Ideal S1x384 .f32) (w' : Vec Ideal S128x384 .f32) (b' : Vec Ideal S1x384 .f32) (p : Fin 4096) (j : Fin 128) :
    k3_pay1 (k3_pay2 x0 x1 w b w' b') (k3_pay3 x0 x1 w b w' b') (ix2 p j)
      = l2row (gruRow (fun k => x0 (ix2 p k)) (fun k => x1 (ix2 p k)) (fun k q => w (ix2 k q)) (fun q => b (ix2 (0 : Fin 1) q))
          (fun k q => w' (ix2 k q)) (fun q => b' (ix2 (0 : Fin 1) q))) j := by
  unfold k3_pay1
  show Ideal.div (k3_pay2 x0 x1 w b w' b' (ix2 p j))
      (broadcastTo S4096x128 (k3_pay3 x0 x1 w b w' b') broadcasts_S4096x1_S4096x128 (ix2 p j)) = _
  rw [col_bcast_apply_r3, len_apply_r3]
  simp only [pay2_eq_r3, pay_apply_r1]
  rfl

-- The block of point t is block t of the normalised cell applied to the arrays the region enters with.
theorem flushed_eq_r3 (t : Fin cfg3.N) :
    (dat3 V c).flushed 6 t = ((cfg3.win 6).blk t).view.read (Elt Ideal)
      (out_r3 V c) := by
  show (cfg3.win 6).cut (grid3.coords t) ((dat3 V c).after 6 t) = _
  rw [after3_6]
  unfold out3_6
  rw [View.canon_unit_zero hz_r1]
  simp only [View.ld_unit_zero (S := S4096x256) hz_r1, View.ld_unit_zero (S := S4096x128) hz_r1, View.ld_unit_zero (S := S256x384) hz_r1,
    View.ld_unit_zero (S := S128x384) hz_r1, View.ld_unit_zero (S := S1x384) hz_r1]
  funext y
  obtain ⟨p, j, rfl⟩ : ∃ (p : Fin 4096) (j : Fin 128), y = ix2 p j := ⟨y 0, y 1, eq_ix2 y⟩
  show k3_pay1 (k3_pay2 (iblk3 V c 0 t) (iblk3 V c 1 t) (iblk3 V c 2 t) (iblk3 V c 4 t) (iblk3 V c 3 t) (iblk3 V c 5 t))
      (k3_pay3 (iblk3 V c 0 t) (iblk3 V c 1 t) (iblk3 V c 2 t) (iblk3 V c 4 t) (iblk3 V c 3 t) (iblk3 V c 5 t)) (ix2 p j)
    = out_r3 V c (((cfg3.win 6).blk t).view.emb (ix2 p j))
  rw [store_apply_r3]
  show l2row _ _ = l2row _ _
  have e0 := win3_6.rect_emb_val t (ix2 p j) 0
  have e1 := win3_6.rect_emb_val t (ix2 p j) 1
  rw [show win3_6.index t = _ from (idx_facts_r1 t).2.2.1] at e0 e1
  refine congr (congrArg l2row (funext fun _ => gruRow_congr_r1 (funext fun k => ?_) (funext fun k => ?_) (funext fun k => funext fun q => ?_)
    (funext fun q => ?_) (funext fun k => funext fun q => ?_) (funext fun q => ?_) rfl)) (Fin.ext ?_)
  · show V c main_v105 _ = _
    refine congrArg (V c main_v105) (funext fun a => Fin.ext ((win3_0.rect_emb_val t _ a).trans ?_))
    rw [show win3_0.index t = _ from (idx_facts_r1 t).1]
    match a with
    | ⟨0, _⟩ => exact e0.symm
    | ⟨1, _⟩ => exact Nat.zero_add _
  · show V c main_v61 _ = _
    refine congrArg (V c main_v61) (funext fun a => Fin.ext ((win3_1.rect_emb_val t _ a).trans ?_))
    rw [show win3_1.index t = _ from (idx_facts_r1 t).2.1]
    match a with
    | ⟨0, _⟩ => exact e0.symm
    | ⟨1, _⟩ => exact Nat.zero_add _
  · exact congrArg (V c main_v108) (funext fun a => Fin.ext (win3_2.rect_emb_val_of_index_zero t a ((idx_facts_r1 t).2.2.2.1 a) _))
  · exact congrArg (V c main_v116) (funext fun a => Fin.ext (win3_4.rect_emb_val_of_index_zero t a ((idx_facts_r1 t).2.2.2.2.2.1 a) _))
  · exact congrArg (V c main_v111) (funext fun a => Fin.ext (win3_3.rect_emb_val_of_index_zero t a ((idx_facts_r1 t).2.2.2.2.1 a) _))
  · exact congrArg (V c main_v117) (funext fun a => Fin.ext (win3_5.rect_emb_val_of_index_zero t a ((idx_facts_r1 t).2.2.2.2.2.2 a) _))
  · exact (e1.trans (Nat.zero_add _)).symm

-- The output's blocks are region 1's output's, array for array.
theorem cover_r3 (i : S32768x128.Idx) :
    ∃ t : Fin cfg3.N, (cfg3.win 6).flush t = true ∧ i ∈ ((cfg3.win 6).blk t).view.set := by
  obtain ⟨t, -, h⟩ := cover_r1 i
  refine ⟨t, flush3_6 t, ?_⟩
  have h : i ∈ ((View.whole main_v61).slice (win1_6.rect t)).set := h
  show i ∈ ((View.whole main_v118).slice (win3_6.rect t)).set
  rw [View.set_slice_whole] at h ⊢
  exact h

theorem region3_out (n : Fin 32768) (j : Fin 128) :
    (dat3 V c).arrAt 6 cfg3.N (ix2 n j)
      = l2row (gruRow (fun k => V c main_v105 (ix2 n k)) (fun k => V c main_v61 (ix2 n k))
          (fun k q => V c main_v108 (ix2 k q)) (fun q => V c main_v116 (ix2 (0 : Fin 1) q))
          (fun k q => V c main_v111 (ix2 k q)) (fun q => V c main_v117 (ix2 (0 : Fin 1) q))) j :=
  congrFun ((dat3 V c).arrAt_eq_of_cover 6 _ (fun t _ => flushed_eq_r3 V c t) cover_r3) (ix2 n j)

end Cert.Gnn.K

end
-- ==== Proof.KRegion4.lean ====
import proofs.«181595_j41618233098847_1_alg».proof.Proof.Gen.KernelIdeal.Frame
import proofs.«181595_j41618233098847_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

set_option maxRecDepth 16384

noncomputable section

open scoped BigOperators

namespace Cert.Gnn.K

open Idealize.ShloMosaic Idealize.ShloMosaic.TcCoe Idealize.ShloMosaic.ValueIdx Idealize.SL.Sem
open Cert.KernelIdeal Cert.KernelIdeal.Gen

namespace R4

theorem hz2 : (![0, 0] : Fin 2 → Nat) = fun _ => 0 := funext fun a => by fin_cases a <;> rfl
theorem hz3 : (![0, 0, 0] : Fin 3 → Nat) = fun _ => 0 := funext fun a => by fin_cases a <;> rfl

def flatRow (p : Fin 32) (i : Fin 128) : Fin 4096 := ⟨128 * p.val + i.val, by omega⟩

theorem pay3_eq (v0 : Vec Ideal S32x128x128 .f32) (v3 : Vec Ideal S128x128 .f32) (v6 : Vec Ideal S1x128 .f32)
    (v10 : Vec Ideal S128x1 .f32) (v13 : Vec Ideal S1x1 .f32) :
    k4_pay3 v0 v3 v6 v10 v13 = k4_pay1 (k4_pay2 v0) (k4_pay4 v0 v3) v6 v10 v13 := rfl

theorem sqrt_apply {s : Shape} {φ : FTy} (a : FVec Ideal s φ) (i : s.Idx) : sqrt a i = Ideal.sqrt (a i) := rfl
theorem logistic_apply {s : Shape} {φ : FTy} (a : FVec Ideal s φ) (i : s.Idx) : logistic a i = Ideal.logistic (a i) := rfl

-- A column broadcast along the second axis reads its row.
theorem col_apply {a b : Nat} (g : FVec Ideal ⟨2, ![a, 1]⟩ .f32) (h : (⟨2, ![a, 1]⟩ : Shape).Broadcasts ⟨2, ![a, b]⟩) (r : Fin a) (f : Fin b) :
    broadcastTo ⟨2, ![a, b]⟩ g h (ix2 r f) = g (ix2 r (0 : Fin 1)) :=
  broadcastTo_apply g h (ix2 r f) (ix2 r (0 : Fin 1)) fun x => by
    match x with
    | ⟨0, _⟩ => show r.val = if a = 1 then 0 else r.val; have := r.isLt; split <;> omega
    | ⟨1, _⟩ => rfl

theorem regroup_apply (v : FVec Ideal S4096x128 .f32) (p : Fin 32) (i f : Fin 128) :
    shapeCast S32x128x128 v shapeCasts_S4096x128_S32x128x128 (ix3 p i f) = v (ix2 (flatRow p i) f) :=
  shapeCast_apply v shapeCasts_S4096x128_S32x128x128 (ix3 p i f) (ix2 (flatRow p i) f)
    (by rewrite [Shape.rowMajor_val_three, Shape.rowMajor_val_two]; show (128 * p.val + i.val) * 128 + f.val = (p.val * 128 + i.val) * 128 + f.val; omega)

theorem column_apply (v : FVec Ideal S32 .f32) (p : Fin 32) (z : Fin 1) :
    shapeCast S32x1 v shapeCasts_S32_S32x1 (ix2 p z) = v (ix1 p) :=
  shapeCast_apply v shapeCasts_S32_S32x1 (ix2 p z) (ix1 p)
    (by rewrite [Shape.rowMajor_val_one, Shape.rowMajor_val_two]; show p.val = p.val * 1 + z.val; omega)

-- A product into the zero accumulator is the plain product: entry (r, f) sums over the contracted coordinate.
theorem mm_apply {m k n : Nat} (x : FVec Ideal ⟨2, ![m, k]⟩ .f32) (w : FVec Ideal ⟨2, ![k, n]⟩ .f32) (r : Fin m) (f : Fin n) :
    matmul (DotDims.plain m k n) none x w (constant (F := Ideal) ⟨2, ![m, n]⟩ .f32 0x00000000#32) (ix2 r f)
      = ∑ l : Fin k, x (ix2 r l) * w (ix2 l f) :=
  (congrFun (matmul_zero_eq_dotGeneral _ none x w) _).trans (StackMember.dotGeneral_plain_apply none x w r f)

theorem dot_feat : dot_S4096x128_S128x128_S4096x128_1_0_0_1_n_n = DotDims.plain 4096 128 128 := rfl
theorem dot_gate : dot_S4096x128_S128x1_S4096x1_1_0_0_1_n_n = DotDims.plain 4096 128 1 := rfl

theorem normalise_apply (s : FVec Ideal S32x128 .f32) (p : Fin 32) (f : Fin 128) :
    (divf s (broadcastTo S32x128 (maximumf (sqrt (shapeCast S32x1 (multiReduction .add [1] S32 (mulf s s) 0x00000000#32
      reduces_S32x128_S32 (.inl rfl) rfl) shapeCasts_S32_S32x1)) (broadcast S32x1 (Scalar.ofBits .f32 0x2B8CBCCC#32)))
      broadcasts_S32x1_S32x128) : FVec Ideal S32x128 .f32) (ix2 p f) = l2row (fun f' => s (ix2 p f')) f := by
  unfold l2row
  simp only [divf_apply, col_apply, maximumf_apply, sqrt_apply, column_apply, broadcast_apply]
  refine congrArg (fun z => Ideal.div (s (ix2 p f)) (max (Ideal.sqrt z) eps32)) ?_
  exact (Ideal.multiReduction_add_single (mulf s s) 0x00000000#32 reduces_S32x128_S32 (.inl rfl) rfl (ix1 p)).trans
    (Finset.sum_congr rfl fun _ _ => congrArg (mulf s s) (funext fun a => match a with | ⟨0, _⟩ => rfl | ⟨1, _⟩ => rfl))

theorem gatedSum_apply (flat h : FVec Ideal S4096x128 .f32) (b : FVec Ideal S1x128 .f32) (gw : FVec Ideal S128x1 .f32)
    (gb : FVec Ideal S1x1 .f32) (p : Fin 32) (f : Fin 128) :
    (multiReduction .add [1] S32x128 (shapeCast S32x128x128 (mulf (addf h (broadcastTo S4096x128 (shapeCast S1x128 b shapeCasts_S1x128_S1x128)
      broadcasts_S1x128_S4096x128)) (broadcastTo S4096x128 (logistic (addf (matmul dot_S4096x128_S128x1_S4096x1_1_0_0_1_n_n none flat
      (shapeCast S128x1 gw shapeCasts_S128x1_S128x1) (constant S4096x1 .f32 0x00000000#32)) (broadcastTo S4096x1 (shapeCast S1x1 gb
      shapeCasts_S1x1_S1x1) broadcasts_S1x1_S4096x1))) broadcasts_S4096x1_S4096x128)) shapeCasts_S4096x128_S32x128x128) 0x00000000#32
      reduces_S32x128x128_S32x128 (.inl rfl) rfl : FVec Ideal S32x128 .f32) (ix2 p f)
      = ∑ i : Fin 128, (h (ix2 (flatRow p i) f) + b (ix2 (0 : Fin 1) f))
          * Ideal.logistic ((∑ k : Fin 128, flat (ix2 (flatRow p i) k) * gw (ix2 k (0 : Fin 1))) + gb (ix2 (0 : Fin 1) (0 : Fin 1))) := by
  refine (Ideal.multiReduction_add_single _ 0x00000000#32 reduces_S32x128x128_S32x128 (.inl rfl) rfl (ix2 p f)).trans
    (Finset.sum_congr rfl fun (i : Fin 128) _ => ?_)
  rw [show reduces_S32x128x128_S32x128.lift (ix2 p f) i = ix3 p i f from
    funext fun a => match a with | ⟨0, _⟩ => rfl | ⟨1, _⟩ => rfl | ⟨2, _⟩ => rfl]
  simp only [dot_gate, regroup_apply, mulf_apply, addf_apply, logistic_apply, broadcastTo_1b_ab_apply, col_apply, mm_apply, shapeCast_self]

theorem flat_apply (x0 : Vec Ideal S32x128x128 .f32) (p : Fin 32) (i k : Fin 128) :
    k4_pay2 x0 (ix2 (flatRow p i) k) = x0 (ix3 p i k) := by
  unfold k4_pay2
  rw [shapeCast_self]
  exact shapeCast_apply x0 shapeCasts_S32x128x128_S4096x128 (ix2 (flatRow p i) k) (ix3 p i k)
    (by rewrite [Shape.rowMajor_val_three, Shape.rowMajor_val_two]; show (p.val * 128 + i.val) * 128 + k.val = (128 * p.val + i.val) * 128 + k.val; omega)

theorem pay4_apply (x0 : FVec Ideal S32x128x128 .f32) (w : FVec Ideal S128x128 .f32) (r : Fin 4096) (f : Fin 128) :
    k4_pay4 x0 w (ix2 r f) = ∑ k : Fin 128, k4_pay2 x0 (ix2 r k) * w (ix2 k f) := by
  unfold k4_pay4
  simp only [dot_feat, shapeCast_self, mm_apply]

def graphOf (T : Nat) (hT : T < 8) (p : Fin 32) : Fin 256 := ⟨32 * T + p.val, by omega⟩

def readoutArr (X : S256x128x128.Idx → EReal) (w : S128x128.Idx → EReal) (b : S1x128.Idx → EReal)
    (gw : S128x1.Idx → EReal) (gb : S1x1.Idx → EReal) : S256x128.Idx → EReal := fun i =>
  readout (fun g n k => X (ix3 g n k)) (fun f k => w (ix2 k f)) (fun f => b (ix2 (0 : Fin 1) f))
    (fun k => gw (ix2 k (0 : Fin 1))) (gb (ix2 (0 : Fin 1) (0 : Fin 1))) (i 0) (i 1)

-- Block T's value is the readout array under it when x0 holds graphs 32·T … 32·T + 31 of X.
theorem block_readout (X : S256x128x128.Idx → EReal) (w : S128x128.Idx → EReal) (b : S1x128.Idx → EReal)
    (gw : S128x1.Idx → EReal) (gb : S1x1.Idx → EReal) (x0 : FVec Ideal S32x128x128 .f32) (T : Nat) (hT : T < 8)
    (hx : ∀ (p : Fin 32) (n k : Fin 128), x0 (ix3 p n k) = X (ix3 (graphOf T hT p) n k))
    (j : S32x128.Idx) (i : S256x128.Idx) (h0 : (i 0).val = 32 * T + (j 0).val) (h1 : (i 1).val = (j 1).val) :
    k4_pay1 (F := Ideal) (k4_pay2 x0) (k4_pay4 x0 w) b gw gb j = readoutArr X w b gw gb i := by
  obtain ⟨p, f, rfl⟩ : ∃ (p : Fin 32) (f : Fin 128), j = ix2 p f := ⟨j 0, j 1, eq_ix2 j⟩
  obtain ⟨g, f', rfl⟩ : ∃ (g : Fin 256) (f' : Fin 128), i = ix2 g f' := ⟨i 0, i 1, eq_ix2 i⟩
  obtain rfl : g = graphOf T hT p := Fin.ext h0
  obtain rfl : f' = f := Fin.ext h1
  refine (normalise_apply _ p f').trans ?_
  show l2row _ f' = l2row (readSum (fun g n k => X (ix3 g n k)) (fun f k => w (ix2 k f))
    (fun f => b (ix2 (0 : Fin 1) f)) (fun k => gw (ix2 k (0 : Fin 1))) (gb (ix2 (0 : Fin 1) (0 : Fin 1))) (graphOf T hT p)) f'
  refine congrArg (fun s => l2row s f') (funext fun f'' => (gatedSum_apply _ _ _ _ _ p f'').trans ?_)
  unfold readSum
  simp only [pay4_apply, flat_apply, hx]

variable (V : (c : Dev nD) → (b : Ref sig .tc) → Buf (Elt Ideal) ((c : Thread nD τ).loc b)) (c : Dev nD)

theorem idx_facts : ∀ t : Fin cfg4.N,
    win4_0.index t (0 : Fin 3) = t.val ∧ win4_0.index t (1 : Fin 3) = 0 ∧ win4_0.index t (2 : Fin 3) = 0
    ∧ win4_9.index t (0 : Fin 2) = t.val ∧ win4_9.index t (1 : Fin 2) = 0
    ∧ win4_10.index t (0 : Fin 2) = t.val ∧ win4_10.index t (1 : Fin 2) = 0 :=
  (by decide +kernel : ∀ t : Fin grid4.N, _)

theorem t_lt (t : Fin cfg4.N) : t.val < 8 := Nat.lt_of_lt_of_eq t.isLt N_4

theorem nodesBlock_apply (t : Fin cfg4.N) (p : Fin 32) (n k : Fin 128) :
    (iblk4 V c 0 t : Vec Ideal S32x128x128 .f32) (ix3 p n k) = V c main_v123 (ix3 (graphOf t.val (t_lt t) p) n k) := by
  obtain ⟨e0, e1, e2, -⟩ := idx_facts t
  refine congrArg (V c main_v123) (funext fun a => Fin.ext ((win4_0.rect_emb_val t _ a).trans ?_))
  match a with
  | ⟨0, _⟩ => show win4_0.index t 0 * 32 + p.val = 32 * t.val + p.val; rw [e0]; omega
  | ⟨1, _⟩ => show win4_0.index t 1 * 128 + n.val = n.val; rw [e1]; omega
  | ⟨2, _⟩ => show win4_0.index t 2 * 128 + k.val = k.val; rw [e2]; omega

theorem fwBlock_eq (t : Fin cfg4.N) : (iblk4 V c 1 t : Vec Ideal S128x128 .f32) = V c main_v119 :=
  funext fun y => congrArg (V c main_v119) (funext fun a => Fin.ext (win4_1.rect_emb_val_of_index_zero t a (match a with | ⟨0, _⟩ => rfl | ⟨1, _⟩ => rfl) y))
theorem fbBlock_eq (t : Fin cfg4.N) : (iblk4 V c 2 t : Vec Ideal S1x128 .f32) = V c main_v124 :=
  funext fun y => congrArg (V c main_v124) (funext fun a => Fin.ext (win4_2.rect_emb_val_of_index_zero t a (match a with | ⟨0, _⟩ => rfl | ⟨1, _⟩ => rfl) y))
theorem gwBlock_eq (t : Fin cfg4.N) : (iblk4 V c 3 t : Vec Ideal S128x1 .f32) = V c main_v120 :=
  funext fun y => congrArg (V c main_v120) (funext fun a => Fin.ext (win4_3.rect_emb_val_of_index_zero t a (match a with | ⟨0, _⟩ => rfl | ⟨1, _⟩ => rfl) y))
theorem gbBlock_eq (t : Fin cfg4.N) : (iblk4 V c 4 t : Vec Ideal S1x1 .f32) = V c main_v125 :=
  funext fun y => congrArg (V c main_v125) (funext fun a => Fin.ext (win4_4.rect_emb_val_of_index_zero t a (match a with | ⟨0, _⟩ => rfl | ⟨1, _⟩ => rfl) y))
theorem fw2Block_eq (t : Fin cfg4.N) : (iblk4 V c 5 t : Vec Ideal S128x128 .f32) = V c main_v121 :=
  funext fun y => congrArg (V c main_v121) (funext fun a => Fin.ext (win4_5.rect_emb_val_of_index_zero t a (match a with | ⟨0, _⟩ => rfl | ⟨1, _⟩ => rfl) y))
theorem fb2Block_eq (t : Fin cfg4.N) : (iblk4 V c 6 t : Vec Ideal S1x128 .f32) = V c main_v126 :=
  funext fun y => congrArg (V c main_v126) (funext fun a => Fin.ext (win4_6.rect_emb_val_of_index_zero t a (match a with | ⟨0, _⟩ => rfl | ⟨1, _⟩ => rfl) y))
theorem gw2Block_eq (t : Fin cfg4.N) : (iblk4 V c 7 t : Vec Ideal S128x1 .f32) = V c main_v122 :=
  funext fun y => congrArg (V c main_v122) (funext fun a => Fin.ext (win4_7.rect_emb_val_of_index_zero t a (match a with | ⟨0, _⟩ => rfl | ⟨1, _⟩ => rfl) y))
theorem gb2Block_eq (t : Fin cfg4.N) : (iblk4 V c 8 t : Vec Ideal S1x1 .f32) = V c main_v127 :=
  funext fun y => congrArg (V c main_v127) (funext fun a => Fin.ext (win4_8.rect_emb_val_of_index_zero t a (match a with | ⟨0, _⟩ => rfl | ⟨1, _⟩ => rfl) y))

theorem flushed9_eq (t : Fin cfg4.N) :
    (dat4 V c).flushed 9 t = ((cfg4.win 9).blk t).view.read (Elt Ideal)
      (readoutArr (V c main_v123) (V c main_v119) (V c main_v124) (V c main_v120) (V c main_v125)) := by
  show (cfg4.win 9).cut (grid4.coords t) ((dat4 V c).after 9 t) = _
  rw [after4_9]
  unfold out4_9
  rw [View.canon_unit_zero hz2]
  simp only [View.ld_unit_zero (S := S32x128x128) hz3, View.ld_unit_zero (S := S128x128) hz2,
    View.ld_unit_zero (S := S1x128) hz2, View.ld_unit_zero (S := S128x1) hz2, View.ld_unit_zero (S := S1x1) hz2]
  rw [pay3_eq, fwBlock_eq, fbBlock_eq, gwBlock_eq, gbBlock_eq]
  obtain ⟨-, -, -, e0, e1, -⟩ := idx_facts t
  funext j
  refine block_readout _ _ _ _ _ (iblk4 V c 0 t) t.val (t_lt t) (nodesBlock_apply V c t) j _ ?_ ?_
  · show win4_9.index t (0 : Fin 2) * 32 + 1 * (j 0).val = 32 * t.val + (j 0).val; rw [e0]; omega
  · show win4_9.index t (1 : Fin 2) * 128 + 1 * (j 1).val = (j 1).val; rw [e1]; omega

theorem flushed10_eq (t : Fin cfg4.N) :
    (dat4 V c).flushed 10 t = ((cfg4.win 10).blk t).view.read (Elt Ideal)
      (readoutArr (V c main_v123) (V c main_v121) (V c main_v126) (V c main_v122) (V c main_v127)) := by
  show (cfg4.win 10).cut (grid4.coords t) ((dat4 V c).after 10 t) = _
  rw [after4_10]
  unfold out4_10
  rw [View.canon_unit_zero hz2]
  simp only [View.ld_unit_zero (S := S32x128x128) hz3, View.ld_unit_zero (S := S128x128) hz2,
    View.ld_unit_zero (S := S1x128) hz2, View.ld_unit_zero (S := S128x1) hz2, View.ld_unit_zero (S := S1x1) hz2]
  rw [fw2Block_eq, fb2Block_eq, gw2Block_eq, gb2Block_eq]
  obtain ⟨-, -, -, -, -, e0, e1⟩ := idx_facts t
  funext j
  refine block_readout _ _ _ _ _ (iblk4 V c 0 t) t.val (t_lt t) (nodesBlock_apply V c t) j _ ?_ ?_
  · show win4_10.index t (0 : Fin 2) * 32 + 1 * (j 0).val = 32 * t.val + (j 0).val; rw [e0]; omega
  · show win4_10.index t (1 : Fin 2) * 128 + 1 * (j 1).val = (j 1).val; rw [e1]; omega

theorem cover9 (i : S256x128.Idx) : ∃ t : Fin cfg4.N, (cfg4.win 9).flush t = true ∧ i ∈ ((cfg4.win 9).blk t).view.set := by
  have hi0 := idx2_lt0 i
  have hi1 := idx2_lt1 i
  have ht : (i 0).val / 32 < cfg4.N := Nat.lt_of_lt_of_eq (by omega : (i 0).val / 32 < 8) N_4.symm
  obtain ⟨-, -, -, e0, e1, -⟩ := idx_facts ⟨(i 0).val / 32, ht⟩
  refine ⟨⟨(i 0).val / 32, ht⟩, flush4_9 _, ?_⟩
  show i ∈ ((View.whole main_v128_0).slice (win4_9.rect ⟨_, ht⟩)).set
  rw [View.set_slice_whole, Rect.mem_set_unit]
  intro a
  match a with
  | ⟨0, _⟩ =>
    show win4_9.index _ 0 * 32 ≤ (i 0).val ∧ (i 0).val < win4_9.index _ 0 * 32 + 32
    rw [e0]; show (i 0).val / 32 * 32 ≤ _ ∧ _ < (i 0).val / 32 * 32 + 32; omega
  | ⟨1, _⟩ =>
    show win4_9.index _ 1 * 128 ≤ (i 1).val ∧ (i 1).val < win4_9.index _ 1 * 128 + 128
    rw [e1]; omega

-- The second output's blocks are the first's, array for array.
theorem cover10 (i : S256x128.Idx) : ∃ t : Fin cfg4.N, (cfg4.win 10).flush t = true ∧ i ∈ ((cfg4.win 10).blk t).view.set := by
  obtain ⟨t, -, h⟩ := cover9 i
  refine ⟨t, flush4_10 t, ?_⟩
  have h : i ∈ ((View.whole main_v128_0).slice (win4_9.rect t)).set := h
  show i ∈ ((View.whole main_v128_1).slice (win4_10.rect t)).set
  rw [View.set_slice_whole] at h ⊢
  exact h

end R4

variable (V : (c : Dev nD) → (b : Ref sig .tc) → Buf (Elt Ideal) ((c : Thread nD τ).loc b)) (c : Dev nD)

theorem region4_hg (g : Fin 256) (f : Fin 128) :
    (dat4 V c).arrAt 9 cfg4.N (ix2 g f)
      = readout (fun g i k => V c main_v123 (ix3 g i k)) (fun f k => V c main_v119 (ix2 k f))
          (fun f => V c main_v124 (ix2 (0 : Fin 1) f)) (fun k => V c main_v120 (ix2 k (0 : Fin 1)))
          (V c main_v125 (ix2 (0 : Fin 1) (0 : Fin 1))) g f :=
  congrFun ((dat4 V c).arrAt_eq_of_cover 9 _ (fun t _ => R4.flushed9_eq V c t) R4.cover9) (ix2 g f)

theorem region4_hginit (g : Fin 256) (f : Fin 128) :
    (dat4 V c).arrAt 10 cfg4.N (ix2 g f)
      = readout (fun g i k => V c main_v123 (ix3 g i k)) (fun f k => V c main_v121 (ix2 k f))
          (fun f => V c main_v126 (ix2 (0 : Fin 1) f)) (fun k => V c main_v122 (ix2 k (0 : Fin 1)))
          (V c main_v127 (ix2 (0 : Fin 1) (0 : Fin 1))) g f :=
  congrFun ((dat4 V c).arrAt_eq_of_cover 10 _ (fun t _ => R4.flushed10_eq V c t) R4.cover10) (ix2 g f)

end Cert.Gnn.K

end
-- ==== Proof.KHost0.lean ====
import proofs.«181595_j41618233098847_1_alg».proof.Proof.Gen.KernelIdeal.Frame
import proofs.«181595_j41618233098847_1_alg».proof.Proof.Spec
import proofs.«181595_j41618233098847_1_alg».proof.Proof.LibHostRead
import proofs.«181595_j41618233098847_1_alg».proof.Proof.LibTakeRows
import Idealize.ShloMosaic.Lib.ValueLayout

noncomputable section

namespace Cert.Gnn.K

open Idealize.ShloMosaic Idealize.ShloMosaic.TcCoe Idealize.ShloMosaic.ValueIdx Idealize.SL.Sem
open Cert.KernelIdeal Cert.KernelIdeal.Gen Cert.HostRead

variable (m : (ℓ : Loc nD τ sig) → Buf (Elt Ideal) ℓ) (ρ : Dev nD → PrngReg) (c : Dev nD)
namespace Host0

variable {α : Type}

-- Row r of a two-row array, cut out and read as a vector: each step keeps the column.
theorem row {n o : Nat} {x x' : (⟨2, ![2, n]⟩ : Shape).Idx → α} {h fa a hc} {v : (⟨1, ![n]⟩ : Shape).Idx → α}
    (ea : a = fa x) (ha : fa = (extractStridedSlice ⟨2, ![1, n]⟩ ![o, 0] · h)) (ev : v = fun i => shapeCast _ a hc i)
    (ex : x = x') (r : Fin 2) (hr : r.val = o + (0 : Fin 1).val) (e : Fin n) : v (ix1 e) = x' (ix2 r e) := by
  subst ha ea ev ex
  exact (shapeCast_1a_a_apply _ _ e).trans (slice2_axis0_apply o x h 0 e r hr)

-- The same row laid out again as a one-row matrix.
theorem biasrow {n o : Nat} {x x' : (⟨2, ![2, n]⟩ : Shape).Idx → α} {h fa a hc} {v : (⟨1, ![n]⟩ : Shape).Idx → α} {hc' w}
    (ea : a = fa x) (ha : fa = (extractStridedSlice ⟨2, ![1, n]⟩ ![o, 0] · h)) (ev : v = fun i => shapeCast _ a hc i)
    (ew : w = fun i => shapeCast ⟨2, ![1, n]⟩ v hc' i) (ex : x = x')
    (r : Fin 2) (hr : r.val = o + (0 : Fin 1).val) (e : Fin n) : w (ix2 (0 : Fin 1) e) = x' (ix2 r e) := by
  subst ew
  exact (shapeCast_a_1a_apply _ _ 0 e).trans (row ea ha ev ex r hr e)

-- Layer L of a pair of square maps, its 128 columns from c0, transposed: entry (k, o) is entry (L, o, c0 + k) of the pair.
theorem half {l c0 : Nat} {x x' : S2x256x256.Idx → α} {h3 fa a hc b h2 fd d ht ft t}
    (ea : a = fa x) (ha : fa = (extractStridedSlice S1x256x256 ![l, 0, 0] · h3)) (eb : b = fun i => shapeCast S256x256 a hc i)
    (ed : d = fd b) (hd : fd = (extractStridedSlice S256x128 ![0, c0] · h2))
    (et : t = ft d) (hft : ft = (transpose S128x256 [1, 0] · ht)) (ex : x = x')
    (L : Fin 2) (hL : L.val = l + (0 : Fin 1).val) (k : Fin 128) (o k' : Fin 256) (hk : k'.val = c0 + k.val) :
    t (ix2 k o) = x' (ix3 L o k') := by
  subst ha hd hft ea eb ed et ex
  exact (transpose_ix2_apply _ _ k o).trans <| (slice2_axis1_apply c0 _ h2 o k k' hk).trans <|
    (shapeCast_1ab_ab_apply _ _ o k').trans <| extractStridedSlice_apply _ x h3 _ (ix3 L o k') fun
      | ⟨0, _⟩ => hL
      | ⟨1, _⟩ => (Nat.zero_add _).symm
      | ⟨2, _⟩ => (Nat.zero_add _).symm

-- An index is normalised (a negative one counts from the end of the table) and the table's row there is taken, clamped.
theorem feat {v : IVec S262144 32} {z zb lt n nb ad se col} {tbl tbl' : S32768x128.Idx → α} {g}
    (ez : z = constantI S_ 32 0#32) (ezb : zb = broadcastInDim S262144 ![] bcast_S_S262144 z) (elt : lt = cmpi .slt v zb)
    (en : n = constantI S_ 32 32768#32) (enb : nb = broadcastInDim S262144 ![] bcast_S_S262144 n) (ead : ad = addi v nb)
    (ese : se = select lt ad v) (ecol : col = broadcastInDim S262144x1 ![0] bcast_S262144_S262144x1_0 se)
    (eg : g = Host.gather gather_S32768x128_S262144x1_S262144x128_1_0_n_n_0_1_1128 tbl col) (et : tbl = tbl')
    {w : Fin 262144 → BitVec 32} (hv : ∀ e, v (ix1 e) = w e) (e : Fin 262144) (k : Fin 128) :
    g (ix2 e k) = tbl' (ix2 (rowOf (w e)) k) := by
  subst ez ezb elt en enb ead ese ecol eg et
  refine (Cert.TakeRows.take_rows_apply _ rfl rfl rfl rfl rfl (by decide) tbl _ e k).trans ?_
  refine congrArg tbl (congrArg (fun r => ix2 r k) (Fin.ext ?_))
  show min (BitVec.toInt _).toNat (32768 - 1) = min (normIdx (w e)).toInt.toNat (32768 - 1)
  rw [← hv e]
  exact congrArg (fun i : BitVec 32 => min i.toInt.toNat (32768 - 1))
    ((broadcastInDim_apply _ _ _ _ (ix1 e) fun | ⟨0, _⟩ => (if_neg (show ¬(262144 : Nat) = 1 by decide)).symm).trans rfl)

theorem fresh0 : Fresh (hostOps0 (F := Ideal)) := by decide +kernel

-- No operation of the first stretch writes b: it holds what was launched.
theorem W1_arg (b : Ref sig .tc) (h : ∀ o ∈ hostOps0 (F := Ideal), Proc.devRef .tc b ∉ o.writes := by decide) :
    W1 m ρ c (Proc.devRef .tc b) = m ((c : Thread nD τ).loc b) :=
  (StableHlo.after_of_forall_not_mem _ _ h).trans rfl

theorem word0 (e : Fin 262144) : W1 m ρ c (Proc.devRef .tc main_v2) (ix1 e) = m ((c : Thread nD τ).loc main_arg1) (ix2 (0 : Fin 2) e) :=
  row (read_unary (x := main_arg1) (y := main_v1) fresh0 1 (hop := rfl)) rfl (read_reshape (x := main_v1) (y := main_v2) fresh0 2 (hop := rfl))
    (W1_arg m ρ c main_arg1) 0 rfl e

theorem word1 (e : Fin 262144) : W1 m ρ c (Proc.devRef .tc main_v4) (ix1 e) = m ((c : Thread nD τ).loc main_arg1) (ix2 (1 : Fin 2) e) :=
  row (read_unary (x := main_arg1) (y := main_v3) fresh0 3 (hop := rfl)) rfl (read_reshape (x := main_v3) (y := main_v4) fresh0 4 (hop := rfl))
    (W1_arg m ρ c main_arg1) 1 rfl e

end Host0

open Host0

theorem s0_ha (e : Fin 262144) (k : Fin 128) :
    W1 m ρ c (Proc.devRef .tc main_v11) (ix2 e k) = W1 m ρ c (Proc.devRef .tc main_v0) (ix2 (rowOf (m ((c : Thread nD τ).loc main_arg1) (ix2 (0 : Fin 2) e))) k) :=
  feat (read_nullary (y := main_c) fresh0 5 (hop := rfl)) (read_unary (x := main_c) (y := main_v5) fresh0 6 (hop := rfl))
    (read_binary (a := main_v2) (b := main_v5) (y := main_v6) fresh0 7 (hop := rfl)) (read_nullary (y := main_c_0) fresh0 8 (hop := rfl))
    (read_unary (x := main_c_0) (y := main_v7) fresh0 9 (hop := rfl)) (read_binary (a := main_v2) (b := main_v7) (y := main_v8) fresh0 10 (hop := rfl))
    (read_ternary (c := main_v6) (a := main_v8) (b := main_v2) (y := main_v9) fresh0 11 (hop := rfl)) (read_unary (x := main_v9) (y := main_v10) fresh0 12 (hop := rfl))
    (read_binary (a := main_v0) (b := main_v10) (y := main_v11) fresh0 13 (hop := rfl)) rfl (word0 m ρ c) e k

theorem s0_hb (e : Fin 262144) (k : Fin 128) :
    W1 m ρ c (Proc.devRef .tc main_v18) (ix2 e k) = W1 m ρ c (Proc.devRef .tc main_v0) (ix2 (rowOf (m ((c : Thread nD τ).loc main_arg1) (ix2 (1 : Fin 2) e))) k) :=
  feat (read_nullary (y := main_c_1) fresh0 14 (hop := rfl)) (read_unary (x := main_c_1) (y := main_v12) fresh0 15 (hop := rfl))
    (read_binary (a := main_v4) (b := main_v12) (y := main_v13) fresh0 16 (hop := rfl)) (read_nullary (y := main_c_2) fresh0 17 (hop := rfl))
    (read_unary (x := main_c_2) (y := main_v14) fresh0 18 (hop := rfl)) (read_binary (a := main_v4) (b := main_v14) (y := main_v15) fresh0 19 (hop := rfl))
    (read_ternary (c := main_v13) (a := main_v15) (b := main_v4) (y := main_v16) fresh0 20 (hop := rfl)) (read_unary (x := main_v16) (y := main_v17) fresh0 21 (hop := rfl))
    (read_binary (a := main_v0) (b := main_v17) (y := main_v18) fresh0 22 (hop := rfl)) rfl (word1 m ρ c) e k

theorem s0_wa (k : Fin 128) (o : Fin 256) : W1 m ρ c (Proc.devRef .tc main_v22) (ix2 k o) = m ((c : Thread nD τ).loc main_arg2) (ix3 (0 : Fin 2) o (h0 k)) :=
  half (read_unary (x := main_arg2) (y := main_v19) fresh0 23 (hop := rfl)) rfl (read_reshape (x := main_v19) (y := main_v20) fresh0 24 (hop := rfl))
    (read_unary (x := main_v20) (y := main_v21) fresh0 25 (hop := rfl)) rfl (read_unary (x := main_v21) (y := main_v22) fresh0 26 (hop := rfl)) rfl
    (W1_arg m ρ c main_arg2) 0 rfl k o (h0 k) (Nat.zero_add _).symm

theorem s0_wb (k : Fin 128) (o : Fin 256) : W1 m ρ c (Proc.devRef .tc main_v26) (ix2 k o) = m ((c : Thread nD τ).loc main_arg2) (ix3 (0 : Fin 2) o (h1 k)) :=
  half (read_unary (x := main_arg2) (y := main_v23) fresh0 27 (hop := rfl)) rfl (read_reshape (x := main_v23) (y := main_v24) fresh0 28 (hop := rfl))
    (read_unary (x := main_v24) (y := main_v25) fresh0 29 (hop := rfl)) rfl (read_unary (x := main_v25) (y := main_v26) fresh0 30 (hop := rfl)) rfl
    (W1_arg m ρ c main_arg2) 0 rfl k o (h1 k) rfl

theorem s0_war (k : Fin 128) (o : Fin 256) : W1 m ρ c (Proc.devRef .tc main_v30) (ix2 k o) = m ((c : Thread nD τ).loc main_arg4) (ix3 (0 : Fin 2) o (h0 k)) :=
  half (read_unary (x := main_arg4) (y := main_v27) fresh0 31 (hop := rfl)) rfl (read_reshape (x := main_v27) (y := main_v28) fresh0 32 (hop := rfl))
    (read_unary (x := main_v28) (y := main_v29) fresh0 33 (hop := rfl)) rfl (read_unary (x := main_v29) (y := main_v30) fresh0 34 (hop := rfl)) rfl
    (W1_arg m ρ c main_arg4) 0 rfl k o (h0 k) (Nat.zero_add _).symm

theorem s0_wbr (k : Fin 128) (o : Fin 256) : W1 m ρ c (Proc.devRef .tc main_v34) (ix2 k o) = m ((c : Thread nD τ).loc main_arg4) (ix3 (0 : Fin 2) o (h1 k)) :=
  half (read_unary (x := main_arg4) (y := main_v31) fresh0 35 (hop := rfl)) rfl (read_reshape (x := main_v31) (y := main_v32) fresh0 36 (hop := rfl))
    (read_unary (x := main_v32) (y := main_v33) fresh0 37 (hop := rfl)) rfl (read_unary (x := main_v33) (y := main_v34) fresh0 38 (hop := rfl)) rfl
    (W1_arg m ρ c main_arg4) 0 rfl k o (h1 k) rfl

theorem s0_b (o : Fin 256) : W1 m ρ c (Proc.devRef .tc main_v39) (ix2 (0 : Fin 1) o) = m ((c : Thread nD τ).loc main_arg3) (ix2 (0 : Fin 2) o) :=
  biasrow (read_unary (x := main_arg3) (y := main_v35) fresh0 39 (hop := rfl)) rfl (read_reshape (x := main_v35) (y := main_v36) fresh0 40 (hop := rfl))
    (read_reshape (x := main_v36) (y := main_v39) fresh0 43 (hop := rfl)) (W1_arg m ρ c main_arg3) 0 rfl o

theorem s0_br (o : Fin 256) : W1 m ρ c (Proc.devRef .tc main_v40) (ix2 (0 : Fin 1) o) = m ((c : Thread nD τ).loc main_arg5) (ix2 (0 : Fin 2) o) :=
  biasrow (read_unary (x := main_arg5) (y := main_v37) fresh0 41 (hop := rfl)) rfl (read_reshape (x := main_v37) (y := main_v38) fresh0 42 (hop := rfl))
    (read_reshape (x := main_v38) (y := main_v40) fresh0 44 (hop := rfl)) (W1_arg m ρ c main_arg5) 0 rfl o

end Cert.Gnn.K

end
-- ==== Proof.LibScatterRows.lean ====
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

abbrev scatterRowsDims {R C M : Nat}
    (wf : ScatterDims.WF ⟨2, ![R, C]⟩ ⟨2, ![M, 1]⟩ ⟨2, ![M, C]⟩ [1] [0] [0] 1) :
    ScatterDims ⟨2, ![R, C]⟩ ⟨2, ![M, 1]⟩ ⟨2, ![M, C]⟩ where
  updateWindowDims := [1]
  insertedWindowDims := [0]
  scatterDimsToOperandDims := [0]
  indexVectorDim := 1
  wf := wf

-- Update (p, q) lands on the row its start index names (read signed, not clamped) and on column q.
theorem scatterRows_land {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (0 : Fin 2) + (scatterRowsDims wf).window (ix2 p q) (0 : Fin 2)
        = (idx (ix2 p (0 : Fin 1))).toInt
      ∧ (scatterRowsDims wf).start (ix2 p q) idx (1 : Fin 2) + (scatterRowsDims wf).window (ix2 p q) (1 : Fin 2)
        = (q.val : Int) := by
  have hm : (0 : Fin 2) ∈ (scatterRowsDims wf).scatterDimsToOperandDims := by
    show (0 : Fin 2) ∈ ([0] : List (Fin 2)); decide
  have hm1 : (1 : Fin 2) ∉ (scatterRowsDims wf).scatterDimsToOperandDims := by
    show (1 : Fin 2) ∉ ([0] : List (Fin 2)); decide
  have hk : (0 : Fin 2) ∉ (scatterRowsDims wf).sKept := by
    show (0 : Fin 2) ∉ ((List.finRange 2).filter (fun a => a ∉ ([0] : List (Fin 2)))); decide
  have hk1 : (1 : Fin 2) ∈ (scatterRowsDims wf).sKept := by
    show (1 : Fin 2) ∈ ((List.finRange 2).filter (fun a => a ∉ ([0] : List (Fin 2)))); decide
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  unfold ScatterDims.start ScatterDims.window
  rw [dif_pos hm, dif_neg hm1, dif_neg hk, dif_pos hk1, hsi]
  exact ⟨add_zero _, zero_add _⟩

theorem scatterRows_resultIdx_iff {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) (n : Fin R) (o : Fin C) :
    (scatterRowsDims wf).resultIdx? (ix2 p q) idx = some (ix2 n o)
      ↔ (idx (ix2 p (0 : Fin 1))).toInt = (n.val : Int) ∧ q = o := by
  obtain ⟨h0, h1⟩ := scatterRows_land wf idx p q
  unfold ScatterDims.resultIdx?
  constructor
  · intro h
    split_ifs at h with hc
    have e := Option.some.inj h
    have e0 : (idx (ix2 p (0 : Fin 1))).toInt.toNat = n.val :=
      (congrArg Int.toNat h0).symm.trans (congrArg Fin.val (congrFun e (0 : Fin 2)))
    have e1 : (q.val : Int).toNat = o.val := (congrArg Int.toNat h1).symm.trans (congrArg Fin.val (congrFun e (1 : Fin 2)))
    have c0 := (hc (0 : Fin 2)).1
    rw [h0] at c0
    exact ⟨by omega, Fin.ext (by omega)⟩
  · rintro ⟨hn, rfl⟩
    rw [dif_pos (Fin.forall_fin_two.2 ⟨by rw [h0, hn]; exact ⟨Int.natCast_nonneg _, Int.ofNat_lt.2 n.isLt⟩,
      by rw [h1]; exact ⟨Int.natCast_nonneg _, Int.ofNat_lt.2 q.isLt⟩⟩)]
    refine congrArg some (funext fun a => Fin.ext ?_)
    match a with
    | ⟨0, _⟩ => exact congrArg Int.toNat (h0.trans hn)
    | ⟨1, _⟩ => exact congrArg Int.toNat h1

theorem scatter_rows_apply {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1
  rw [Finset.sum_filter, Finset.sum_filter, sum_idx2]
  refine Finset.sum_congr rfl fun p _ => ?_
  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.KHost1.lean ====
import proofs.«181595_j41618233098847_1_alg».proof.Proof.Gen.KernelIdeal.Frame
import proofs.«181595_j41618233098847_1_alg».proof.Proof.Spec
import proofs.«181595_j41618233098847_1_alg».proof.Proof.LibHostRead
import proofs.«181595_j41618233098847_1_alg».proof.Proof.LibTakeRows
import proofs.«181595_j41618233098847_1_alg».proof.Proof.LibScatterRows
import Idealize.ShloMosaic.Lib.ValueLayout
import Idealize.ShloMosaic.Lib.IdealHost

noncomputable section

open scoped BigOperators

namespace Cert.Gnn.K

open Idealize.ShloMosaic Idealize.ShloMosaic.TcCoe Idealize.ShloMosaic.ValueIdx Idealize.SL.Sem
open Cert.KernelIdeal Cert.KernelIdeal.Gen Cert.HostRead

variable (m : (ℓ : Loc nD τ sig) → Buf (Elt Ideal) ℓ) (ρ : Dev nD → PrngReg) (c : Dev nD)

namespace Host1

section Layout
variable {α : Type}

-- Row l of a stack of vectors, cut out and flattened: entry e is entry (l, e).
theorem vRow {L n : Nat} (l : Fin L) {B : (⟨2, ![L, n]⟩ : Shape).Idx → α} {hs hr}
    {S : (⟨2, ![1, n]⟩ : Shape).Idx → α} {R : (⟨1, ![n]⟩ : Shape).Idx → α}
    (eR : R = shapeCast ⟨1, ![n]⟩ S hr) (eS : S = extractStridedSlice ⟨2, ![1, n]⟩ ![l.val, 0] B hs)
    (e : Fin n) : R (ix1 e) = B (ix2 l e) := by
  subst eR eS
  exact (shapeCast_1a_a_apply _ _ e).trans (slice2_axis0_apply l.val _ _ (0 : Fin 1) e l rfl)

-- The same laid as a one-row matrix: entry (0, q) is entry (l, q).
theorem bRow {L n : Nat} (l : Fin L) {B : (⟨2, ![L, n]⟩ : Shape).Idx → α} {hs hr hq}
    {S Q : (⟨2, ![1, n]⟩ : Shape).Idx → α} {R : (⟨1, ![n]⟩ : Shape).Idx → α}
    (eQ : Q = shapeCast ⟨2, ![1, n]⟩ R hq) (eR : R = shapeCast ⟨1, ![n]⟩ S hr)
    (eS : S = extractStridedSlice ⟨2, ![1, n]⟩ ![l.val, 0] B hs) (q : Fin n) :
    Q (ix2 (0 : Fin 1) q) = B (ix2 l q) := by
  subst eQ
  exact (shapeCast_a_1a_apply _ _ 0 q).trans (vRow l eR eS q)

-- Layer l of a stack of matrices, cut out, unstacked and transposed: entry (k, q) is entry (l, q, k).
theorem wT {L n0 n1 : Nat} (l : Fin L) {B : (⟨3, ![L, n0, n1]⟩ : Shape).Idx → α} {hs hr ht}
    {S : (⟨3, ![1, n0, n1]⟩ : Shape).Idx → α} {R : (⟨2, ![n0, n1]⟩ : Shape).Idx → α}
    {T : (⟨2, ![n1, n0]⟩ : Shape).Idx → α} (eT : T = transpose ⟨2, ![n1, n0]⟩ [1, 0] R ht)
    (eR : R = shapeCast ⟨2, ![n0, n1]⟩ S hr) (eS : S = extractStridedSlice ⟨3, ![1, n0, n1]⟩ ![l.val, 0, 0] B hs)
    (k : Fin n1) (q : Fin n0) : T (ix2 k q) = B (ix3 l q k) := by
  subst eT eR eS
  exact (transpose_ix2_apply _ _ k q).trans ((shapeCast_1ab_ab_apply _ _ q k).trans
    (extractStridedSlice_apply _ _ _ _ (ix3 l q k) fun a => match a with
      | ⟨0, _⟩ => rfl
      | ⟨1, _⟩ => (Nat.zero_add _).symm
      | ⟨2, _⟩ => (Nat.zero_add _).symm))

-- A vector laid as a one-column matrix: entry (p, 0) is entry p.
theorem col_apply {n : Nat} (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p (0 : Fin 1)) = x (ix1 p) :=
  broadcastInDim_apply _ h x (ix2 p (0 : Fin 1)) (ix1 p) fun a => match a with
    | ⟨0, _⟩ => by
      show p.val = if n = 1 then 0 else p.val
      have := p.isLt
      split <;> omega

end Layout

-- Rows scattered into the zero array at a column of indices: row n is the sum of the rows whose index, read signed, is n.
theorem segSum {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1) {Y Z : (⟨2, ![R, C]⟩ : Shape).Idx → EReal} {I : IVec ⟨2, ![M, 1]⟩ 32}
    {U U' : (⟨2, ![M, C]⟩ : Shape).Idx → EReal} {K : (⟨0, ![]⟩ : Shape).Idx → EReal} {W : IVec ⟨1, ![M]⟩ 32}
    {J : Fin M → BitVec 32} {hz : (⟨0, ![]⟩ : Shape).BroadcastsInDim ⟨2, ![R, C]⟩ ![]}
    {hb : (⟨1, ![M]⟩ : Shape).BroadcastsInDim ⟨2, ![M, 1]⟩ ![0]} (eY : Y = Host.scatterAdd (F := Ideal) (φ := .f32) d Z I U)
    (eZ : Z = broadcastInDim ⟨2, ![R, C]⟩ ![] hz K) (eK : K = constant (F := Ideal) ⟨0, ![]⟩ .f32 0x00000000#32)
    (eI : I = broadcastInDim ⟨2, ![M, 1]⟩ ![0] hb W) (hW : ∀ p, W (ix1 p) = J p) (eU : U = U') (n : Fin R) (o : Fin C) :
    Y (ix2 n o) = ∑ p ∈ Finset.univ.filter (fun p : Fin M => (J p).toInt = (n.val : Int)), U' (ix2 p o) := by
  subst eY eZ eK eI eU
  rw [Cert.ScatterRows.scatter_rows_apply d huw hiw hsd hiv, broadcastInDim_scalar_apply, constant_apply,
    Ideal.ofBits_zero_f32, zero_add]
  exact Finset.sum_congr (Finset.filter_congr fun p _ => by rw [col_apply, hW]) fun _ _ => rfl

theorem fresh : Fresh (hostOps1 (F := Ideal)) := by decide

theorem fresh0 : Fresh (hostOps0 (F := Ideal)) := by decide

-- What the first host operations do not write is as it was at the start.
theorem W1_arg (x : Ref sig .tc)
    (h0 : ∀ op ∈ hostOps0 (F := Ideal), Proc.devRef (τ := τ) .tc x ∉ op.writes := by decide) :
    W1 m ρ c (Proc.devRef .tc x) = m ((c : Thread nD τ).loc x) :=
  StableHlo.after_of_forall_not_mem _ _ h0

-- A buffer neither the first message region nor the stretch after it writes is as the first stretch left it.
theorem W3_W1 (x : Ref sig .tc)
    (h1 : ∀ op ∈ hostOps1 (F := Ideal), Proc.devRef (τ := τ) .tc x ∉ op.writes := by decide)
    (r0 : ∀ w, Pipeline.arrRef spec0 w ≠ x := by decide) :
    W3 m ρ c (Proc.devRef .tc x) = W1 m ρ c (Proc.devRef .tc x) :=
  (StableHlo.after_of_forall_not_mem _ _ h1).trans (W2_of_ne m ρ c x r0)

-- Row 1 of the edge list holds the second endpoints, row 0 the first.
theorem W1_v4 (e : Fin 262144) :
    W1 m ρ c (Proc.devRef .tc main_v4) (ix1 e) = m ((c : Thread nD τ).loc main_arg1) (ix2 (1 : Fin 2) e) :=
  (vRow 1 (read_reshape fresh0 4 (x := main_v3) (y := main_v4) (hop := rfl))
    (read_unary fresh0 3 (x := main_arg1) (y := main_v3)
      (f := (extractStridedSlice S1x262144 ![1, 0] · slices_S2x262144_S1x262144_1_0)) (hop := rfl)) e).trans
    (congrFun (W1_arg m ρ c main_arg1) _)

theorem W1_v2 (e : Fin 262144) :
    W1 m ρ c (Proc.devRef .tc main_v2) (ix1 e) = m ((c : Thread nD τ).loc main_arg1) (ix2 (0 : Fin 2) e) :=
  (vRow 0 (read_reshape fresh0 2 (x := main_v1) (y := main_v2) (hop := rfl))
    (read_unary fresh0 1 (x := main_arg1) (y := main_v1)
      (f := (extractStridedSlice S1x262144 ![0, 0] · slices_S2x262144_S1x262144_0_0)) (hop := rfl)) e).trans
    (congrFun (W1_arg m ρ c main_arg1) _)

end Host1

open Host1

theorem s1_agg (n : Fin 32768) (o : Fin 256) :
    W3 m ρ c (Proc.devRef .tc main_v48) (ix2 n o)
      = agg (fun e => (m ((c : Thread nD τ).loc main_arg1) (ix2 (0 : Fin 2) e))) (fun e => (m ((c : Thread nD τ).loc main_arg1) (ix2 (1 : Fin 2) e)))
          (fun e o => W2 m ρ c (Proc.devRef .tc main_v41_0) (ix2 e o)) (fun e o => W2 m ρ c (Proc.devRef .tc main_v41_1) (ix2 e o)) n o :=
  (congrFun (read_binary Host1.fresh 8 (a := main_v44) (b := main_v47) (y := main_v48) (hop := rfl)) _).trans
    ((addf_apply _ _ _).trans (congrArg₂ (· + ·)
    (segSum _ rfl rfl rfl rfl (read_ternary Host1.fresh 3 (c := main_v42) (a := main_v43) (b := main_v41_0) (y := main_v44) (hop := rfl))
      (read_unary Host1.fresh 1 (x := main_cst) (y := main_v42) (hop := rfl))
      (read_nullary Host1.fresh 0 (y := main_cst) (hop := rfl))
      (read_unary Host1.fresh 2 (x := main_v4) (y := main_v43) (hop := rfl))
      (fun p => (congrFun (W3_W1 m ρ c main_v4) _).trans (W1_v4 m ρ c p))
      (StableHlo.after_of_forall_not_mem _ _ (by decide)) n o)
    (segSum _ rfl rfl rfl rfl (read_ternary Host1.fresh 7 (c := main_v45) (a := main_v46) (b := main_v41_1) (y := main_v47) (hop := rfl))
      (read_unary Host1.fresh 5 (x := main_cst_3) (y := main_v45) (hop := rfl))
      (read_nullary Host1.fresh 4 (y := main_cst_3) (hop := rfl))
      (read_unary Host1.fresh 6 (x := main_v2) (y := main_v46) (hop := rfl))
      (fun p => (congrFun (W3_W1 m ρ c main_v2) _).trans (W1_v2 m ρ c p))
      (StableHlo.after_of_forall_not_mem _ _ (by decide)) n o)))

theorem s1_hf : W3 m ρ c (Proc.devRef .tc main_v0) = W1 m ρ c (Proc.devRef .tc main_v0) :=
  W3_W1 m ρ c main_v0

theorem s1_wih (k : Fin 256) (q : Fin 384) : W3 m ρ c (Proc.devRef .tc main_v51) (ix2 k q) = m ((c : Thread nD τ).loc main_arg6) (ix3 (0 : Fin 2) q k) :=
  (wT 0 (read_unary Host1.fresh 11 (x := main_v50) (y := main_v51)
      (f := (transpose S256x384 [1, 0] · transposes_S384x256_S256x384_1_0)) (hop := rfl))
      (read_reshape Host1.fresh 10 (x := main_v49) (y := main_v50) (hop := rfl))
    (read_unary Host1.fresh 9 (x := main_arg6) (y := main_v49)
      (f := (extractStridedSlice S1x384x256 ![0, 0, 0] · slices_S2x384x256_S1x384x256_0_0_0)) (hop := rfl)) k q).trans
    (congrFun ((W3_W1 m ρ c main_arg6).trans (W1_arg m ρ c main_arg6)) _)

theorem s1_whh (k : Fin 128) (q : Fin 384) : W3 m ρ c (Proc.devRef .tc main_v54) (ix2 k q) = m ((c : Thread nD τ).loc main_arg7) (ix3 (0 : Fin 2) q k) :=
  (wT 0 (read_unary Host1.fresh 14 (x := main_v53) (y := main_v54)
      (f := (transpose S128x384 [1, 0] · transposes_S384x128_S128x384_1_0)) (hop := rfl))
      (read_reshape Host1.fresh 13 (x := main_v52) (y := main_v53) (hop := rfl))
    (read_unary Host1.fresh 12 (x := main_arg7) (y := main_v52)
      (f := (extractStridedSlice S1x384x128 ![0, 0, 0] · slices_S2x384x128_S1x384x128_0_0_0)) (hop := rfl)) k q).trans
    (congrFun ((W3_W1 m ρ c main_arg7).trans (W1_arg m ρ c main_arg7)) _)

theorem s1_bih (q : Fin 384) : W3 m ρ c (Proc.devRef .tc main_v59) (ix2 (0 : Fin 1) q) = m ((c : Thread nD τ).loc main_arg8) (ix2 (0 : Fin 2) q) :=
  (bRow 0 (read_reshape Host1.fresh 19 (x := main_v56) (y := main_v59) (hop := rfl))
      (read_reshape Host1.fresh 16 (x := main_v55) (y := main_v56) (hop := rfl))
    (read_unary Host1.fresh 15 (x := main_arg8) (y := main_v55)
      (f := (extractStridedSlice S1x384 ![0, 0] · slices_S2x384_S1x384_0_0)) (hop := rfl)) q).trans
    (congrFun ((W3_W1 m ρ c main_arg8).trans (W1_arg m ρ c main_arg8)) _)

theorem s1_bhh (q : Fin 384) : W3 m ρ c (Proc.devRef .tc main_v60) (ix2 (0 : Fin 1) q) = m ((c : Thread nD τ).loc main_arg9) (ix2 (0 : Fin 2) q) :=
  (bRow 0 (read_reshape Host1.fresh 20 (x := main_v58) (y := main_v60) (hop := rfl))
      (read_reshape Host1.fresh 18 (x := main_v57) (y := main_v58) (hop := rfl))
    (read_unary Host1.fresh 17 (x := main_arg9) (y := main_v57)
      (f := (extractStridedSlice S1x384 ![0, 0] · slices_S2x384_S1x384_0_0)) (hop := rfl)) q).trans
    (congrFun ((W3_W1 m ρ c main_arg9).trans (W1_arg m ρ c main_arg9)) _)

end Cert.Gnn.K

end
-- ==== Proof.KHost2.lean ====
import proofs.«181595_j41618233098847_1_alg».proof.Proof.KHost0

noncomputable section

namespace Cert.Gnn.K

open Idealize.ShloMosaic Idealize.ShloMosaic.TcCoe Idealize.ShloMosaic.ValueIdx Idealize.SL.Sem
open Cert.KernelIdeal Cert.KernelIdeal.Gen Cert.HostRead

variable (m : (ℓ : Loc nD τ sig) → Buf (Elt Ideal) ℓ) (ρ : Dev nD → PrngReg) (c : Dev nD)
open Host0

namespace Host2

theorem fresh2 : Fresh (hostOps2 (F := Ideal)) := by decide +kernel

-- Neither the first two regions nor the two stretches after them write b: at the third region's entry it holds y still.
theorem W5_of (b : Ref sig .tc) {y} (e1 : W1 m ρ c (Proc.devRef .tc b) = y)
    (h2 : ∀ o ∈ hostOps2 (F := Ideal), Proc.devRef .tc b ∉ o.writes := by decide)
    (h1 : ∀ w, Pipeline.arrRef spec1 w ≠ b := by decide)
    (h1' : ∀ o ∈ hostOps1 (F := Ideal), Proc.devRef .tc b ∉ o.writes := by decide)
    (h0 : ∀ w, Pipeline.arrRef spec0 w ≠ b := by decide) : W5 m ρ c (Proc.devRef .tc b) = y :=
  (StableHlo.after_of_forall_not_mem _ _ h2).trans <| (W4_of_ne m ρ c b h1).trans <|
    (StableHlo.after_of_forall_not_mem _ _ h1').trans <| (W2_of_ne m ρ c b h0).trans e1

end Host2

open Host2

theorem s2_ha (e : Fin 262144) (k : Fin 128) :
    W5 m ρ c (Proc.devRef .tc main_v68) (ix2 e k) = W4 m ρ c (Proc.devRef .tc main_v61) (ix2 (rowOf (m ((c : Thread nD τ).loc main_arg1) (ix2 (0 : Fin 2) e))) k) :=
  feat (read_nullary (y := main_c_4) fresh2 0 (hop := rfl)) (read_unary (x := main_c_4) (y := main_v62) fresh2 1 (hop := rfl))
    (read_binary (a := main_v2) (b := main_v62) (y := main_v63) fresh2 2 (hop := rfl)) (read_nullary (y := main_c_5) fresh2 3 (hop := rfl))
    (read_unary (x := main_c_5) (y := main_v64) fresh2 4 (hop := rfl)) (read_binary (a := main_v2) (b := main_v64) (y := main_v65) fresh2 5 (hop := rfl))
    (read_ternary (c := main_v63) (a := main_v65) (b := main_v2) (y := main_v66) fresh2 6 (hop := rfl)) (read_unary (x := main_v66) (y := main_v67) fresh2 7 (hop := rfl))
    (read_binary (a := main_v61) (b := main_v67) (y := main_v68) fresh2 8 (hop := rfl)) (StableHlo.after_of_forall_not_mem _ _ (by decide)) (fun e => (congrFun (W5_of m ρ c main_v2 rfl) _).trans (word0 m ρ c e)) e k

theorem s2_hb (e : Fin 262144) (k : Fin 128) :
    W5 m ρ c (Proc.devRef .tc main_v75) (ix2 e k) = W4 m ρ c (Proc.devRef .tc main_v61) (ix2 (rowOf (m ((c : Thread nD τ).loc main_arg1) (ix2 (1 : Fin 2) e))) k) :=
  feat (read_nullary (y := main_c_6) fresh2 9 (hop := rfl)) (read_unary (x := main_c_6) (y := main_v69) fresh2 10 (hop := rfl))
    (read_binary (a := main_v4) (b := main_v69) (y := main_v70) fresh2 11 (hop := rfl)) (read_nullary (y := main_c_7) fresh2 12 (hop := rfl))
    (read_unary (x := main_c_7) (y := main_v71) fresh2 13 (hop := rfl)) (read_binary (a := main_v4) (b := main_v71) (y := main_v72) fresh2 14 (hop := rfl))
    (read_ternary (c := main_v70) (a := main_v72) (b := main_v4) (y := main_v73) fresh2 15 (hop := rfl)) (read_unary (x := main_v73) (y := main_v74) fresh2 16 (hop := rfl))
    (read_binary (a := main_v61) (b := main_v74) (y := main_v75) fresh2 17 (hop := rfl)) (StableHlo.after_of_forall_not_mem _ _ (by decide)) (fun e => (congrFun (W5_of m ρ c main_v4 rfl) _).trans (word1 m ρ c e)) e k

theorem s2_wa (k : Fin 128) (o : Fin 256) : W5 m ρ c (Proc.devRef .tc main_v79) (ix2 k o) = m ((c : Thread nD τ).loc main_arg2) (ix3 (1 : Fin 2) o (h0 k)) :=
  half (read_unary (x := main_arg2) (y := main_v76) fresh2 18 (hop := rfl)) rfl (read_reshape (x := main_v76) (y := main_v77) fresh2 19 (hop := rfl))
    (read_unary (x := main_v77) (y := main_v78) fresh2 20 (hop := rfl)) rfl (read_unary (x := main_v78) (y := main_v79) fresh2 21 (hop := rfl)) rfl
    (W5_of m ρ c main_arg2 (W1_arg m ρ c main_arg2)) 1 rfl k o (h0 k) (Nat.zero_add _).symm

theorem s2_wb (k : Fin 128) (o : Fin 256) : W5 m ρ c (Proc.devRef .tc main_v83) (ix2 k o) = m ((c : Thread nD τ).loc main_arg2) (ix3 (1 : Fin 2) o (h1 k)) :=
  half (read_unary (x := main_arg2) (y := main_v80) fresh2 22 (hop := rfl)) rfl (read_reshape (x := main_v80) (y := main_v81) fresh2 23 (hop := rfl))
    (read_unary (x := main_v81) (y := main_v82) fresh2 24 (hop := rfl)) rfl (read_unary (x := main_v82) (y := main_v83) fresh2 25 (hop := rfl)) rfl
    (W5_of m ρ c main_arg2 (W1_arg m ρ c main_arg2)) 1 rfl k o (h1 k) rfl

theorem s2_war (k : Fin 128) (o : Fin 256) : W5 m ρ c (Proc.devRef .tc main_v87) (ix2 k o) = m ((c : Thread nD τ).loc main_arg4) (ix3 (1 : Fin 2) o (h0 k)) :=
  half (read_unary (x := main_arg4) (y := main_v84) fresh2 26 (hop := rfl)) rfl (read_reshape (x := main_v84) (y := main_v85) fresh2 27 (hop := rfl))
    (read_unary (x := main_v85) (y := main_v86) fresh2 28 (hop := rfl)) rfl (read_unary (x := main_v86) (y := main_v87) fresh2 29 (hop := rfl)) rfl
    (W5_of m ρ c main_arg4 (W1_arg m ρ c main_arg4)) 1 rfl k o (h0 k) (Nat.zero_add _).symm

theorem s2_wbr (k : Fin 128) (o : Fin 256) : W5 m ρ c (Proc.devRef .tc main_v91) (ix2 k o) = m ((c : Thread nD τ).loc main_arg4) (ix3 (1 : Fin 2) o (h1 k)) :=
  half (read_unary (x := main_arg4) (y := main_v88) fresh2 30 (hop := rfl)) rfl (read_reshape (x := main_v88) (y := main_v89) fresh2 31 (hop := rfl))
    (read_unary (x := main_v89) (y := main_v90) fresh2 32 (hop := rfl)) rfl (read_unary (x := main_v90) (y := main_v91) fresh2 33 (hop := rfl)) rfl
    (W5_of m ρ c main_arg4 (W1_arg m ρ c main_arg4)) 1 rfl k o (h1 k) rfl

theorem s2_b (o : Fin 256) : W5 m ρ c (Proc.devRef .tc main_v96) (ix2 (0 : Fin 1) o) = m ((c : Thread nD τ).loc main_arg3) (ix2 (1 : Fin 2) o) :=
  biasrow (read_unary (x := main_arg3) (y := main_v92) fresh2 34 (hop := rfl)) rfl (read_reshape (x := main_v92) (y := main_v93) fresh2 35 (hop := rfl))
    (read_reshape (x := main_v93) (y := main_v96) fresh2 38 (hop := rfl)) (W5_of m ρ c main_arg3 (W1_arg m ρ c main_arg3)) 1 rfl o

theorem s2_br (o : Fin 256) : W5 m ρ c (Proc.devRef .tc main_v97) (ix2 (0 : Fin 1) o) = m ((c : Thread nD τ).loc main_arg5) (ix2 (1 : Fin 2) o) :=
  biasrow (read_unary (x := main_arg5) (y := main_v94) fresh2 36 (hop := rfl)) rfl (read_reshape (x := main_v94) (y := main_v95) fresh2 37 (hop := rfl))
    (read_reshape (x := main_v95) (y := main_v97) fresh2 39 (hop := rfl)) (W5_of m ρ c main_arg5 (W1_arg m ρ c main_arg5)) 1 rfl o

end Cert.Gnn.K

end
-- ==== Proof.KHost3.lean ====
import proofs.«181595_j41618233098847_1_alg».proof.Proof.Gen.KernelIdeal.Frame
import proofs.«181595_j41618233098847_1_alg».proof.Proof.Spec
import proofs.«181595_j41618233098847_1_alg».proof.Proof.LibHostRead
import proofs.«181595_j41618233098847_1_alg».proof.Proof.LibTakeRows
import proofs.«181595_j41618233098847_1_alg».proof.Proof.LibScatterRows
import proofs.«181595_j41618233098847_1_alg».proof.Proof.KHost1
import Idealize.ShloMosaic.Lib.ValueLayout
import Idealize.ShloMosaic.Lib.IdealHost

noncomputable section

namespace Cert.Gnn.K

open Idealize.ShloMosaic Idealize.ShloMosaic.TcCoe Idealize.ShloMosaic.ValueIdx Idealize.SL.Sem
open Cert.KernelIdeal Cert.KernelIdeal.Gen Cert.HostRead

variable (m : (ℓ : Loc nD τ sig) → Buf (Elt Ideal) ℓ) (ρ : Dev nD → PrngReg) (c : Dev nD)

namespace Host3

theorem fresh : Fresh (hostOps3 (F := Ideal)) := by decide

-- A buffer that the second message region and the two stretches around it do not write is as the first cell region left it.
theorem W7_W4 (x : Ref sig .tc)
    (h3 : ∀ op ∈ hostOps3 (F := Ideal), Proc.devRef (τ := τ) .tc x ∉ op.writes := by decide)
    (r2 : ∀ w, Pipeline.arrRef spec2 w ≠ x := by decide)
    (h2 : ∀ op ∈ hostOps2 (F := Ideal), Proc.devRef (τ := τ) .tc x ∉ op.writes := by decide) :
    W7 m ρ c (Proc.devRef .tc x) = W4 m ρ c (Proc.devRef .tc x) :=
  (StableHlo.after_of_forall_not_mem _ _ h3).trans ((W6_of_ne m ρ c x r2).trans (StableHlo.after_of_forall_not_mem _ _ h2))

-- If the first cell region does not write it either, it is as the first stretch left it.
theorem W7_W1 (x : Ref sig .tc) (e : W7 m ρ c (Proc.devRef .tc x) = W4 m ρ c (Proc.devRef .tc x))
    (e' : W3 m ρ c (Proc.devRef .tc x) = W1 m ρ c (Proc.devRef .tc x))
    (r1 : ∀ w, Pipeline.arrRef spec1 w ≠ x := by decide) :
    W7 m ρ c (Proc.devRef .tc x) = W1 m ρ c (Proc.devRef .tc x) :=
  e.trans ((W4_of_ne m ρ c x r1).trans e')

end Host3

open Host1 Host3

theorem s3_agg (n : Fin 32768) (o : Fin 256) :
    W7 m ρ c (Proc.devRef .tc main_v105) (ix2 n o)
      = agg (fun e => (m ((c : Thread nD τ).loc main_arg1) (ix2 (0 : Fin 2) e))) (fun e => (m ((c : Thread nD τ).loc main_arg1) (ix2 (1 : Fin 2) e)))
          (fun e o => W6 m ρ c (Proc.devRef .tc main_v98_0) (ix2 e o)) (fun e o => W6 m ρ c (Proc.devRef .tc main_v98_1) (ix2 e o)) n o :=
  (congrFun (read_binary Host3.fresh 8 (a := main_v101) (b := main_v104) (y := main_v105) (hop := rfl)) _).trans
    ((addf_apply _ _ _).trans (congrArg₂ (· + ·)
    (segSum _ rfl rfl rfl rfl (read_ternary Host3.fresh 3 (c := main_v99) (a := main_v100) (b := main_v98_0) (y := main_v101) (hop := rfl))
      (read_unary Host3.fresh 1 (x := main_cst_8) (y := main_v99) (hop := rfl))
      (read_nullary Host3.fresh 0 (y := main_cst_8) (hop := rfl))
      (read_unary Host3.fresh 2 (x := main_v4) (y := main_v100) (hop := rfl))
      (fun p => (congrFun (W7_W1 m ρ c main_v4 (W7_W4 m ρ c main_v4) (W3_W1 m ρ c main_v4)) _).trans (W1_v4 m ρ c p))
      (StableHlo.after_of_forall_not_mem _ _ (by decide)) n o)
    (segSum _ rfl rfl rfl rfl (read_ternary Host3.fresh 7 (c := main_v102) (a := main_v103) (b := main_v98_1) (y := main_v104) (hop := rfl))
      (read_unary Host3.fresh 5 (x := main_cst_9) (y := main_v102) (hop := rfl))
      (read_nullary Host3.fresh 4 (y := main_cst_9) (hop := rfl))
      (read_unary Host3.fresh 6 (x := main_v2) (y := main_v103) (hop := rfl))
      (fun p => (congrFun (W7_W1 m ρ c main_v2 (W7_W4 m ρ c main_v2) (W3_W1 m ρ c main_v2)) _).trans (W1_v2 m ρ c p))
      (StableHlo.after_of_forall_not_mem _ _ (by decide)) n o)))

theorem s3_hf : W7 m ρ c (Proc.devRef .tc main_v61) = W4 m ρ c (Proc.devRef .tc main_v61) :=
  W7_W4 m ρ c main_v61

theorem s3_wih (k : Fin 256) (q : Fin 384) : W7 m ρ c (Proc.devRef .tc main_v108) (ix2 k q) = m ((c : Thread nD τ).loc main_arg6) (ix3 (1 : Fin 2) q k) :=
  (wT 1 (read_unary Host3.fresh 11 (x := main_v107) (y := main_v108)
      (f := (transpose S256x384 [1, 0] · transposes_S384x256_S256x384_1_0)) (hop := rfl))
      (read_reshape Host3.fresh 10 (x := main_v106) (y := main_v107) (hop := rfl))
    (read_unary Host3.fresh 9 (x := main_arg6) (y := main_v106)
      (f := (extractStridedSlice S1x384x256 ![1, 0, 0] · slices_S2x384x256_S1x384x256_1_0_0)) (hop := rfl)) k q).trans
    (congrFun ((W7_W1 m ρ c main_arg6 (W7_W4 m ρ c main_arg6) (W3_W1 m ρ c main_arg6)).trans (W1_arg m ρ c main_arg6)) _)

theorem s3_whh (k : Fin 128) (q : Fin 384) : W7 m ρ c (Proc.devRef .tc main_v111) (ix2 k q) = m ((c : Thread nD τ).loc main_arg7) (ix3 (1 : Fin 2) q k) :=
  (wT 1 (read_unary Host3.fresh 14 (x := main_v110) (y := main_v111)
      (f := (transpose S128x384 [1, 0] · transposes_S384x128_S128x384_1_0)) (hop := rfl))
      (read_reshape Host3.fresh 13 (x := main_v109) (y := main_v110) (hop := rfl))
    (read_unary Host3.fresh 12 (x := main_arg7) (y := main_v109)
      (f := (extractStridedSlice S1x384x128 ![1, 0, 0] · slices_S2x384x128_S1x384x128_1_0_0)) (hop := rfl)) k q).trans
    (congrFun ((W7_W1 m ρ c main_arg7 (W7_W4 m ρ c main_arg7) (W3_W1 m ρ c main_arg7)).trans (W1_arg m ρ c main_arg7)) _)

theorem s3_bih (q : Fin 384) : W7 m ρ c (Proc.devRef .tc main_v116) (ix2 (0 : Fin 1) q) = m ((c : Thread nD τ).loc main_arg8) (ix2 (1 : Fin 2) q) :=
  (bRow 1 (read_reshape Host3.fresh 19 (x := main_v113) (y := main_v116) (hop := rfl))
      (read_reshape Host3.fresh 16 (x := main_v112) (y := main_v113) (hop := rfl))
    (read_unary Host3.fresh 15 (x := main_arg8) (y := main_v112)
      (f := (extractStridedSlice S1x384 ![1, 0] · slices_S2x384_S1x384_1_0)) (hop := rfl)) q).trans
    (congrFun ((W7_W1 m ρ c main_arg8 (W7_W4 m ρ c main_arg8) (W3_W1 m ρ c main_arg8)).trans (W1_arg m ρ c main_arg8)) _)

theorem s3_bhh (q : Fin 384) : W7 m ρ c (Proc.devRef .tc main_v117) (ix2 (0 : Fin 1) q) = m ((c : Thread nD τ).loc main_arg9) (ix2 (1 : Fin 2) q) :=
  (bRow 1 (read_reshape Host3.fresh 20 (x := main_v115) (y := main_v117) (hop := rfl))
      (read_reshape Host3.fresh 18 (x := main_v114) (y := main_v115) (hop := rfl))
    (read_unary Host3.fresh 17 (x := main_arg9) (y := main_v114)
      (f := (extractStridedSlice S1x384 ![1, 0] · slices_S2x384_S1x384_1_0)) (hop := rfl)) q).trans
    (congrFun ((W7_W1 m ρ c main_arg9 (W7_W4 m ρ c main_arg9) (W3_W1 m ρ c main_arg9)).trans (W1_arg m ρ c main_arg9)) _)

end Cert.Gnn.K

end
-- ==== Proof.KHost4.lean ====
import proofs.«181595_j41618233098847_1_alg».proof.Proof.Gen.KernelIdeal.Frame
import proofs.«181595_j41618233098847_1_alg».proof.Proof.Spec
import proofs.«181595_j41618233098847_1_alg».proof.Proof.LibHostRead
import proofs.«181595_j41618233098847_1_alg».proof.Proof.LibTakeRows
import Idealize.ShloMosaic.Lib.ValueLayout

noncomputable section

namespace Cert.Gnn.K

open Idealize.ShloMosaic Idealize.ShloMosaic.TcCoe Idealize.ShloMosaic.ValueIdx Idealize.SL.Sem
open Cert.KernelIdeal Cert.KernelIdeal.Gen Cert.HostRead

variable (m : (ℓ : Loc nD τ sig) → Buf (Elt Ideal) ℓ) (ρ : Dev nD → PrngReg) (c : Dev nD)

namespace Host4

theorem fresh : Fresh (hostOps4 (F := Ideal)) := by decide

end Host4

theorem s4_x : W9 m ρ c (Proc.devRef .tc main_v123) = shapeCast S256x128x128 (W8 m ρ c (Proc.devRef .tc main_v118)) shapeCasts_S32768x128_S256x128x128 :=
  (read_reshape Host4.fresh 4 (x := main_v118) (y := main_v123) (hop := rfl)).trans
    (congrArg (shapeCast S256x128x128 · shapeCasts_S32768x128_S256x128x128) (StableHlo.after_of_forall_not_mem _ _ (by decide)))

theorem s4_keep : W10 m ρ c (Proc.devRef .tc main_v123) = W9 m ρ c (Proc.devRef .tc main_v123) :=
  (W10_arr m ρ c (0 : Fin cfg4.W)).trans
    ((Pipeline.Dat.arrAt_in (dat := dat4 (V9 m ρ) c) (0 : Fin cfg4.W) rfl cfg4.N).trans (A_eq4 (V9 m ρ) c (0 : Fin cfg4.W)))

theorem s4_fw (k f : Fin 128) : W9 m ρ c (Proc.devRef .tc main_v119) (ix2 k f) = m ((c : Thread nD τ).loc main_arg10) (ix2 f k) :=
  (congrFun (read_unary Host4.fresh 0 (x := main_arg10) (y := main_v119)
      (f := (transpose S128x128 [1, 0] · transposes_S128x128_S128x128_1_0)) (hop := rfl)) _).trans ((transpose_ix2_apply _ _ k f).trans
      (congrFun ((W10_of_ne m ρ c main_arg10 (by decide)).symm.trans (W10_main_arg10 m ρ c)) _))

theorem s4_fb (f : Fin 128) : W9 m ρ c (Proc.devRef .tc main_v124) (ix2 (0 : Fin 1) f) = m ((c : Thread nD τ).loc main_arg11) (ix1 f) :=
  (congrFun (read_reshape Host4.fresh 5 (x := main_arg11) (y := main_v124) (hop := rfl)) _).trans ((shapeCast_a_1a_apply _ _ 0 f).trans
      (congrFun ((W10_of_ne m ρ c main_arg11 (by decide)).symm.trans (W10_main_arg11 m ρ c)) _))

theorem s4_gw (k : Fin 128) : W9 m ρ c (Proc.devRef .tc main_v120) (ix2 k (0 : Fin 1)) = m ((c : Thread nD τ).loc main_arg12) (ix2 (0 : Fin 1) k) :=
  (congrFun (read_unary Host4.fresh 1 (x := main_arg12) (y := main_v120)
      (f := (transpose S128x1 [1, 0] · transposes_S1x128_S128x1_1_0)) (hop := rfl)) _).trans ((transpose_ix2_apply _ _ k 0).trans
      (congrFun ((W10_of_ne m ρ c main_arg12 (by decide)).symm.trans (W10_main_arg12 m ρ c)) _))

theorem s4_gb : W9 m ρ c (Proc.devRef .tc main_v125) (ix2 (0 : Fin 1) (0 : Fin 1)) = m ((c : Thread nD τ).loc main_arg13) (ix1 (0 : Fin 1)) :=
  (congrFun (read_reshape Host4.fresh 6 (x := main_arg13) (y := main_v125) (hop := rfl)) _).trans ((shapeCast_a_1a_apply _ _ 0 0).trans
      (congrFun ((W10_of_ne m ρ c main_arg13 (by decide)).symm.trans (W10_main_arg13 m ρ c)) _))

theorem s4_fw2 (k f : Fin 128) : W9 m ρ c (Proc.devRef .tc main_v121) (ix2 k f) = m ((c : Thread nD τ).loc main_arg14) (ix2 f k) :=
  (congrFun (read_unary Host4.fresh 2 (x := main_arg14) (y := main_v121)
      (f := (transpose S128x128 [1, 0] · transposes_S128x128_S128x128_1_0)) (hop := rfl)) _).trans ((transpose_ix2_apply _ _ k f).trans
      (congrFun ((W10_of_ne m ρ c main_arg14 (by decide)).symm.trans (W10_main_arg14 m ρ c)) _))

theorem s4_fb2 (f : Fin 128) : W9 m ρ c (Proc.devRef .tc main_v126) (ix2 (0 : Fin 1) f) = m ((c : Thread nD τ).loc main_arg15) (ix1 f) :=
  (congrFun (read_reshape Host4.fresh 7 (x := main_arg15) (y := main_v126) (hop := rfl)) _).trans ((shapeCast_a_1a_apply _ _ 0 f).trans
      (congrFun ((W10_of_ne m ρ c main_arg15 (by decide)).symm.trans (W10_main_arg15 m ρ c)) _))

theorem s4_gw2 (k : Fin 128) : W9 m ρ c (Proc.devRef .tc main_v122) (ix2 k (0 : Fin 1)) = m ((c : Thread nD τ).loc main_arg16) (ix2 (0 : Fin 1) k) :=
  (congrFun (read_unary Host4.fresh 3 (x := main_arg16) (y := main_v122)
      (f := (transpose S128x1 [1, 0] · transposes_S1x128_S128x1_1_0)) (hop := rfl)) _).trans ((transpose_ix2_apply _ _ k 0).trans
      (congrFun ((W10_of_ne m ρ c main_arg16 (by decide)).symm.trans (W10_main_arg16 m ρ c)) _))

theorem s4_gb2 : W9 m ρ c (Proc.devRef .tc main_v127) (ix2 (0 : Fin 1) (0 : Fin 1)) = m ((c : Thread nD τ).loc main_arg17) (ix1 (0 : Fin 1)) :=
  (congrFun (read_reshape Host4.fresh 8 (x := main_arg17) (y := main_v127) (hop := rfl)) _).trans ((shapeCast_a_1a_apply _ _ 0 0).trans
      (congrFun ((W10_of_ne m ρ c main_arg17 (by decide)).symm.trans (W10_main_arg17 m ρ c)) _))

end Cert.Gnn.K

end
-- ==== Proof.KLayer.lean ====
import proofs.«181595_j41618233098847_1_alg».proof.Proof.Gen.KernelIdeal.Frame
import proofs.«181595_j41618233098847_1_alg».proof.Proof.Spec
import proofs.«181595_j41618233098847_1_alg».proof.Proof.LibHostRead
import proofs.«181595_j41618233098847_1_alg».proof.Proof.LibTakeRows
import proofs.«181595_j41618233098847_1_alg».proof.Proof.KRegion0
import proofs.«181595_j41618233098847_1_alg».proof.Proof.KRegion1
import proofs.«181595_j41618233098847_1_alg».proof.Proof.KRegion2
import proofs.«181595_j41618233098847_1_alg».proof.Proof.KRegion3
import proofs.«181595_j41618233098847_1_alg».proof.Proof.KRegion4
import proofs.«181595_j41618233098847_1_alg».proof.Proof.KHost0
import proofs.«181595_j41618233098847_1_alg».proof.Proof.KHost1
import proofs.«181595_j41618233098847_1_alg».proof.Proof.KHost2
import proofs.«181595_j41618233098847_1_alg».proof.Proof.KHost3
import proofs.«181595_j41618233098847_1_alg».proof.Proof.KHost4
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.Gnn.K

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The first message region's forward output is the layer's forward message of the endpoint rows of the node table. -/
theorem k_fwd0 (e : Fin 262144) (o : Fin 256) :
    W2 m ρ c (Proc.devRef .tc main_v41_0) (ix2 e o)
      = msg (fun e => (fun k => W1 m ρ c (Proc.devRef .tc main_v0) (ix2 (rowOf (m ((c : Thread nD τ).loc main_arg1) (ix2 (0 : Fin 2) e))) k)))
            (fun e => (fun k => W1 m ρ c (Proc.devRef .tc main_v0) (ix2 (rowOf (m ((c : Thread nD τ).loc main_arg1) (ix2 (1 : Fin 2) e))) k)))
            (fun o k => m ((c : Thread nD τ).loc main_arg2) (ix3 (0 : Fin 2) o k)) (fun o => m ((c : Thread nD τ).loc main_arg3) (ix2 (0 : Fin 2) o)) e o := by
  rw [show W2 m ρ c (Proc.devRef .tc main_v41_0) = (dat0 (V1 m ρ) c).arrAt 8 cfg0.N from W2_arr m ρ c 8,
    region0_fwd (V1 m ρ) c e o, msg_eq_msg2]
  show msg2 (fun e k => W1 m ρ c (Proc.devRef .tc main_v11) (ix2 e k)) (fun e k => W1 m ρ c (Proc.devRef .tc main_v18) (ix2 e k))
      (fun k o => W1 m ρ c (Proc.devRef .tc main_v22) (ix2 k o)) (fun k o => W1 m ρ c (Proc.devRef .tc main_v26) (ix2 k o))
      (fun o => W1 m ρ c (Proc.devRef .tc main_v39) (ix2 (0 : Fin 1) o)) e o = _
  simp only [s0_ha m ρ c, s0_hb m ρ c, s0_wa m ρ c, s0_wb m ρ c, s0_b m ρ c]

/-- Its reverse output: the endpoints change places and the reverse map is used. -/
theorem k_rev0 (e : Fin 262144) (o : Fin 256) :
    W2 m ρ c (Proc.devRef .tc main_v41_1) (ix2 e o)
      = msg (fun e => (fun k => W1 m ρ c (Proc.devRef .tc main_v0) (ix2 (rowOf (m ((c : Thread nD τ).loc main_arg1) (ix2 (1 : Fin 2) e))) k)))
            (fun e => (fun k => W1 m ρ c (Proc.devRef .tc main_v0) (ix2 (rowOf (m ((c : Thread nD τ).loc main_arg1) (ix2 (0 : Fin 2) e))) k)))
            (fun o k => m ((c : Thread nD τ).loc main_arg4) (ix3 (0 : Fin 2) o k)) (fun o => m ((c : Thread nD τ).loc main_arg5) (ix2 (0 : Fin 2) o)) e o := by
  rw [show W2 m ρ c (Proc.devRef .tc main_v41_1) = (dat0 (V1 m ρ) c).arrAt 9 cfg0.N from W2_arr m ρ c 9,
    region0_rev (V1 m ρ) c e o, msg_eq_msg2]
  show msg2 (fun e k => W1 m ρ c (Proc.devRef .tc main_v18) (ix2 e k)) (fun e k => W1 m ρ c (Proc.devRef .tc main_v11) (ix2 e k))
      (fun k o => W1 m ρ c (Proc.devRef .tc main_v30) (ix2 k o)) (fun k o => W1 m ρ c (Proc.devRef .tc main_v34) (ix2 k o))
      (fun o => W1 m ρ c (Proc.devRef .tc main_v40) (ix2 (0 : Fin 1) o)) e o = _
  simp only [s0_ha m ρ c, s0_hb m ρ c, s0_war m ρ c, s0_wbr m ρ c, s0_br m ρ c]

/-- The first cell region leaves the layer applied to the node table. -/
theorem k_layer0 (n : Fin 32768) (j : Fin 128) :
    W4 m ρ c (Proc.devRef .tc main_v61) (ix2 n j)
      = layer (fun n k => W1 m ρ c (Proc.devRef .tc main_v0) (ix2 n k))
          (fun e => m ((c : Thread nD τ).loc main_arg1) (ix2 (0 : Fin 2) e)) (fun e => m ((c : Thread nD τ).loc main_arg1) (ix2 (1 : Fin 2) e))
          (fun o k => m ((c : Thread nD τ).loc main_arg2) (ix3 (0 : Fin 2) o k)) (fun o => m ((c : Thread nD τ).loc main_arg3) (ix2 (0 : Fin 2) o))
          (fun o k => m ((c : Thread nD τ).loc main_arg4) (ix3 (0 : Fin 2) o k)) (fun o => m ((c : Thread nD τ).loc main_arg5) (ix2 (0 : Fin 2) o))
          (fun q k => m ((c : Thread nD τ).loc main_arg6) (ix3 (0 : Fin 2) q k)) (fun q => m ((c : Thread nD τ).loc main_arg8) (ix2 (0 : Fin 2) q))
          (fun q k => m ((c : Thread nD τ).loc main_arg7) (ix3 (0 : Fin 2) q k)) (fun q => m ((c : Thread nD τ).loc main_arg9) (ix2 (0 : Fin 2) q)) n j := by
  rw [show W4 m ρ c (Proc.devRef .tc main_v61) = (dat1 (V3 m ρ) c).arrAt 6 cfg1.N from W4_arr m ρ c 6,
    region1_out (V3 m ρ) c n j]
  show gruRow (fun k => W3 m ρ c (Proc.devRef .tc main_v48) (ix2 n k)) (fun k => W3 m ρ c (Proc.devRef .tc main_v0) (ix2 n k))
      (fun k q => W3 m ρ c (Proc.devRef .tc main_v51) (ix2 k q)) (fun q => W3 m ρ c (Proc.devRef .tc main_v59) (ix2 (0 : Fin 1) q))
      (fun k q => W3 m ρ c (Proc.devRef .tc main_v54) (ix2 k q)) (fun q => W3 m ρ c (Proc.devRef .tc main_v60) (ix2 (0 : Fin 1) q)) j = _
  simp only [s1_agg m ρ c, s1_hf m ρ c, s1_wih m ρ c, s1_whh m ρ c, s1_bih m ρ c, s1_bhh m ρ c, layer_eq_gruRow, k_fwd0 m ρ c, k_rev0 m ρ c]

/-- The same three steps for the second layer, over the first layer's node features. -/
theorem k_fwd1 (e : Fin 262144) (o : Fin 256) :
    W6 m ρ c (Proc.devRef .tc main_v98_0) (ix2 e o)
      = msg (fun e => (fun k => W4 m ρ c (Proc.devRef .tc main_v61) (ix2 (rowOf (m ((c : Thread nD τ).loc main_arg1) (ix2 (0 : Fin 2) e))) k)))
            (fun e => (fun k => W4 m ρ c (Proc.devRef .tc main_v61) (ix2 (rowOf (m ((c : Thread nD τ).loc main_arg1) (ix2 (1 : Fin 2) e))) k)))
            (fun o k => m ((c : Thread nD τ).loc main_arg2) (ix3 (1 : Fin 2) o k)) (fun o => m ((c : Thread nD τ).loc main_arg3) (ix2 (1 : Fin 2) o)) e o := by
  rw [show W6 m ρ c (Proc.devRef .tc main_v98_0) = (dat2 (V5 m ρ) c).arrAt 8 cfg2.N from W6_arr m ρ c 8,
    region2_fwd (V5 m ρ) c e o, msg_eq_msg2]
  show msg2 (fun e k => W5 m ρ c (Proc.devRef .tc main_v68) (ix2 e k)) (fun e k => W5 m ρ c (Proc.devRef .tc main_v75) (ix2 e k))
      (fun k o => W5 m ρ c (Proc.devRef .tc main_v79) (ix2 k o)) (fun k o => W5 m ρ c (Proc.devRef .tc main_v83) (ix2 k o))
      (fun o => W5 m ρ c (Proc.devRef .tc main_v96) (ix2 (0 : Fin 1) o)) e o = _
  simp only [s2_ha m ρ c, s2_hb m ρ c, s2_wa m ρ c, s2_wb m ρ c, s2_b m ρ c]

theorem k_rev1 (e : Fin 262144) (o : Fin 256) :
    W6 m ρ c (Proc.devRef .tc main_v98_1) (ix2 e o)
      = msg (fun e => (fun k => W4 m ρ c (Proc.devRef .tc main_v61) (ix2 (rowOf (m ((c : Thread nD τ).loc main_arg1) (ix2 (1 : Fin 2) e))) k)))
            (fun e => (fun k => W4 m ρ c (Proc.devRef .tc main_v61) (ix2 (rowOf (m ((c : Thread nD τ).loc main_arg1) (ix2 (0 : Fin 2) e))) k)))
            (fun o k => m ((c : Thread nD τ).loc main_arg4) (ix3 (1 : Fin 2) o k)) (fun o => m ((c : Thread nD τ).loc main_arg5) (ix2 (1 : Fin 2) o)) e o := by
  rw [show W6 m ρ c (Proc.devRef .tc main_v98_1) = (dat2 (V5 m ρ) c).arrAt 9 cfg2.N from W6_arr m ρ c 9,
    region2_rev (V5 m ρ) c e o, msg_eq_msg2]
  show msg2 (fun e k => W5 m ρ c (Proc.devRef .tc main_v75) (ix2 e k)) (fun e k => W5 m ρ c (Proc.devRef .tc main_v68) (ix2 e k))
      (fun k o => W5 m ρ c (Proc.devRef .tc main_v87) (ix2 k o)) (fun k o => W5 m ρ c (Proc.devRef .tc main_v91) (ix2 k o))
      (fun o => W5 m ρ c (Proc.devRef .tc main_v97) (ix2 (0 : Fin 1) o)) e o = _
  simp only [s2_ha m ρ c, s2_hb m ρ c, s2_war m ρ c, s2_wbr m ρ c, s2_br m ρ c]

/-- The second cell region also divides every row by its Euclidean length. -/
theorem k_layer1 (n : Fin 32768) (j : Fin 128) :
    W8 m ρ c (Proc.devRef .tc main_v118) (ix2 n j)
      = l2row (layer (fun n k => W4 m ρ c (Proc.devRef .tc main_v61) (ix2 n k))
          (fun e => m ((c : Thread nD τ).loc main_arg1) (ix2 (0 : Fin 2) e)) (fun e => m ((c : Thread nD τ).loc main_arg1) (ix2 (1 : Fin 2) e))
          (fun o k => m ((c : Thread nD τ).loc main_arg2) (ix3 (1 : Fin 2) o k)) (fun o => m ((c : Thread nD τ).loc main_arg3) (ix2 (1 : Fin 2) o))
          (fun o k => m ((c : Thread nD τ).loc main_arg4) (ix3 (1 : Fin 2) o k)) (fun o => m ((c : Thread nD τ).loc main_arg5) (ix2 (1 : Fin 2) o))
          (fun q k => m ((c : Thread nD τ).loc main_arg6) (ix3 (1 : Fin 2) q k)) (fun q => m ((c : Thread nD τ).loc main_arg8) (ix2 (1 : Fin 2) q))
          (fun q k => m ((c : Thread nD τ).loc main_arg7) (ix3 (1 : Fin 2) q k)) (fun q => m ((c : Thread nD τ).loc main_arg9) (ix2 (1 : Fin 2) q)) n) j := by
  rw [show W8 m ρ c (Proc.devRef .tc main_v118) = (dat3 (V7 m ρ) c).arrAt 6 cfg3.N from W8_arr m ρ c 6,
    region3_out (V7 m ρ) c n j]
  show l2row (gruRow (fun k => W7 m ρ c (Proc.devRef .tc main_v105) (ix2 n k)) (fun k => W7 m ρ c (Proc.devRef .tc main_v61) (ix2 n k))
      (fun k q => W7 m ρ c (Proc.devRef .tc main_v108) (ix2 k q)) (fun q => W7 m ρ c (Proc.devRef .tc main_v116) (ix2 (0 : Fin 1) q))
      (fun k q => W7 m ρ c (Proc.devRef .tc main_v111) (ix2 k q)) (fun q => W7 m ρ c (Proc.devRef .tc main_v117) (ix2 (0 : Fin 1) q))) j = _
  simp only [s3_agg m ρ c, s3_hf m ρ c, s3_wih m ρ c, s3_whh m ρ c, s3_bih m ρ c, s3_bhh m ρ c, layer_eq_gruRow, k_fwd1 m ρ c, k_rev1 m ρ c]
  rfl

/-- The readout region's two outputs are the readout with each set of weights. -/
theorem k_hg (g : Fin 256) (f : Fin 128) :
    W10 m ρ c (Proc.devRef .tc main_v128_0) (ix2 g f)
      = readout (fun g i k => W9 m ρ c (Proc.devRef .tc main_v123) (ix3 g i k)) (fun f k => m ((c : Thread nD τ).loc main_arg10) (ix2 f k)) (fun f => m ((c : Thread nD τ).loc main_arg11) (ix1 f))
          (fun k => m ((c : Thread nD τ).loc main_arg12) (ix2 (0 : Fin 1) k)) (m ((c : Thread nD τ).loc main_arg13) (ix1 (0 : Fin 1))) g f := by
  rw [show W10 m ρ c (Proc.devRef .tc main_v128_0) = (dat4 (V9 m ρ) c).arrAt 9 cfg4.N from W10_arr m ρ c 9, region4_hg (V9 m ρ) c g f]
  show readout (fun g i k => W9 m ρ c (Proc.devRef .tc main_v123) (ix3 g i k)) (fun f k => W9 m ρ c (Proc.devRef .tc main_v119) (ix2 k f))
      (fun f => W9 m ρ c (Proc.devRef .tc main_v124) (ix2 (0 : Fin 1) f)) (fun k => W9 m ρ c (Proc.devRef .tc main_v120) (ix2 k (0 : Fin 1)))
      (W9 m ρ c (Proc.devRef .tc main_v125) (ix2 (0 : Fin 1) (0 : Fin 1))) g f = _
  simp only [s4_fw m ρ c, s4_fb m ρ c, s4_gw m ρ c, s4_gb m ρ c]

theorem k_hginit (g : Fin 256) (f : Fin 128) :
    W10 m ρ c (Proc.devRef .tc main_v128_1) (ix2 g f)
      = readout (fun g i k => W9 m ρ c (Proc.devRef .tc main_v123) (ix3 g i k)) (fun f k => m ((c : Thread nD τ).loc main_arg14) (ix2 f k)) (fun f => m ((c : Thread nD τ).loc main_arg15) (ix1 f))
          (fun k => m ((c : Thread nD τ).loc main_arg16) (ix2 (0 : Fin 1) k)) (m ((c : Thread nD τ).loc main_arg17) (ix1 (0 : Fin 1))) g f := by
  rw [show W10 m ρ c (Proc.devRef .tc main_v128_1) = (dat4 (V9 m ρ) c).arrAt 10 cfg4.N from W10_arr m ρ c 10, region4_hginit (V9 m ρ) c g f]
  show readout (fun g i k => W9 m ρ c (Proc.devRef .tc main_v123) (ix3 g i k)) (fun f k => W9 m ρ c (Proc.devRef .tc main_v121) (ix2 k f))
      (fun f => W9 m ρ c (Proc.devRef .tc main_v126) (ix2 (0 : Fin 1) f)) (fun k => W9 m ρ c (Proc.devRef .tc main_v122) (ix2 k (0 : Fin 1)))
      (W9 m ρ c (Proc.devRef .tc main_v127) (ix2 (0 : Fin 1) (0 : Fin 1))) g f = _
  simp only [s4_fw2 m ρ c, s4_fb2 m ρ c, s4_gw2 m ρ c, s4_gb2 m ρ c]

end Cert.Gnn.K

end
-- ==== Proof.Algebra.lean ====
import proofs.«181595_j41618233098847_1_alg».proof.Proof.Spec
import Idealize.ShloMosaic.PureOps.Ideal.Laws

noncomputable section

open scoped BigOperators

namespace Cert.Gnn

open Idealize.ShloMosaic

theorem one32_eq : one32 = 1 := by
  have h : one32 = ((1 : ℝ) : EReal) := by
    simp [one32, Ideal.ofBits, Ideal.ieee, -EReal.coe_mul]; norm_num
  rw [h]; rfl

/-- 1 / (1 + e^(−x)) is the logistic function by its definition, the literal 1 being 1. -/
theorem logistic_spelt (x : EReal) : Ideal.div one32 (one32 + Ideal.exp (-x)) = Ideal.logistic x := by
  rw [one32_eq]; rfl

/-- A sum over 256 columns split at column 128. -/
theorem sum_split256 (f : Fin 256 → EReal) :
    ∑ k : Fin 256, f k = (∑ k : Fin 128, f (h0 k)) + ∑ k : Fin 128, f (h1 k) := by
  exact Fin.sum_univ_add (a := 128) (b := 128) f

/-- A product over the 256 joined input features is the message: split the sum at column 128. -/
theorem msg_of_cat {E : Nat} (A B : Fin E → Fin 128 → EReal) (W : Fin 256 → Fin 256 → EReal) (b : Fin 256 → EReal)
    (e : Fin E) (o : Fin 256) (Mrow : Fin 256 → EReal) (hM0 : ∀ k : Fin 128, Mrow (h0 k) = A e k)
    (hM1 : ∀ k : Fin 128, Mrow (h1 k) = B e k) :
    (∑ k : Fin 256, Mrow k * W o k) + b o = msg A B W b e o := by
  unfold msg
  rw [sum_split256 fun k => Mrow k * W o k]
  simp only [hM0, hM1]

/-- One pass over the 524288 directed messages is the forward half plus the reverse half. -/
theorem agg_of_cat (s t : Fin 262144 → BitVec 32) (Fw Rv : Fin 262144 → Fin 256 → EReal)
    (I : Fin 524288 → BitVec 32) (U : Fin 524288 → Fin 256 → EReal)
    (hI0 : ∀ e : Fin 262144, I ⟨e.val, by omega⟩ = t e) (hI1 : ∀ e : Fin 262144, I ⟨262144 + e.val, by omega⟩ = s e)
    (hU0 : ∀ (e : Fin 262144) (o : Fin 256), U ⟨e.val, by omega⟩ o = Fw e o)
    (hU1 : ∀ (e : Fin 262144) (o : Fin 256), U ⟨262144 + e.val, by omega⟩ o = Rv e o)
    (n : Fin 32768) (o : Fin 256) :
    (∑ p ∈ Finset.univ.filter (fun p : Fin 524288 => (I p).toInt = (n.val : Int)), U p o) = agg s t Fw Rv n o := by
  unfold agg
  rw [Finset.sum_filter, Finset.sum_filter, Finset.sum_filter]
  refine (Fin.sum_univ_add (a := 262144) (b := 262144)
    (fun p : Fin 524288 => if (I p).toInt = (n.val : Int) then U p o else 0)).trans ?_
  refine congrArg₂ (· + ·) ?_ ?_
  ·
    refine Finset.sum_congr rfl fun e _ => ?_
    have e1 : (Fin.castAdd 262144 e : Fin (262144 + 262144)) = (⟨e.val, by omega⟩ : Fin 524288) := rfl
    show (if (I (Fin.castAdd 262144 e)).toInt = (n.val : Int) then U (Fin.castAdd 262144 e) o else 0) = _
    rw [e1, hI0, hU0]
  ·
    refine Finset.sum_congr rfl fun e _ => ?_
    have e1 : (Fin.natAdd 262144 e : Fin (262144 + 262144)) = (⟨262144 + e.val, by omega⟩ : Fin 524288) := rfl
    show (if (I (Fin.natAdd 262144 e)).toInt = (n.val : Int) then U (Fin.natAdd 262144 e) o else 0) = _
    rw [e1, hI1, hU1]

end Cert.Gnn

end
-- ==== Proof.RLayer1.lean ====
import proofs.«181595_j41618233098847_1_alg».proof.Proof.RRead
import proofs.«181595_j41618233098847_1_alg».proof.Proof.Spec
import proofs.«181595_j41618233098847_1_alg».proof.Proof.Algebra
import proofs.«181595_j41618233098847_1_alg».proof.Proof.LibTakeRows
import proofs.«181595_j41618233098847_1_alg».proof.Proof.LibScatterRows
import Idealize.ShloMosaic.Lib.ValueLayout

set_option maxRecDepth 16384

noncomputable section

open scoped BigOperators

namespace Cert.Gnn.R

open Idealize.ShloMosaic Idealize.ShloMosaic.ValueIdx
open Cert.ReferenceIdeal Cert.ReferenceIdeal.Gen Cert.ReferenceIdeal.ReadP

variable (x0 : (⟨S256x128x128, .f32⟩ : BufTy).Contents (Elt Ideal)) (x1 : (⟨S2x262144, .i32⟩ : BufTy).Contents (Elt Ideal))
  (x2 : (⟨S2x256x256, .f32⟩ : BufTy).Contents (Elt Ideal)) (x3 : (⟨S2x256, .f32⟩ : BufTy).Contents (Elt Ideal))
  (x4 : (⟨S2x256x256, .f32⟩ : BufTy).Contents (Elt Ideal)) (x5 : (⟨S2x256, .f32⟩ : BufTy).Contents (Elt Ideal))
  (x6 : (⟨S2x384x256, .f32⟩ : BufTy).Contents (Elt Ideal)) (x7 : (⟨S2x384x128, .f32⟩ : BufTy).Contents (Elt Ideal))
  (x8 x9 : (⟨S2x384, .f32⟩ : BufTy).Contents (Elt Ideal))

section general

variable {α : Type}

theorem ite_one {N : ℕ} (o : Fin N) : o.val = if N = 1 then 0 else o.val := by
  have := o.isLt
  split <;> omega

-- row l of a stack of two A×B maps, transposed: entry (k, o) is the map's entry (o, k)
theorem mapT_at {A B : ℕ} (l : Fin 2) (x : (⟨3, ![2, A, B]⟩ : Shape).Idx → α)
    (k : Fin B) (o : Fin A)
    (hs : (⟨3, ![2, A, B]⟩ : Shape).Slices ![l.val, 0, 0] ⟨3, ![1, A, B]⟩ := by decide)
    (hc : (⟨3, ![1, A, B]⟩ : Shape).ShapeCasts ⟨2, ![A, B]⟩ := by decide)
    (ht : (⟨2, ![A, B]⟩ : Shape).Transposes [1, 0] ⟨2, ![B, A]⟩ := by decide) :
    transpose ⟨2, ![B, A]⟩ [1, 0] (shapeCast ⟨2, ![A, B]⟩ (extractStridedSlice ⟨3, ![1, A, B]⟩ ![l.val, 0, 0] x hs) hc) ht
      (ix2 k o) = x (ix3 l o k) := by
  rw [transpose_ix2_apply, shapeCast_1ab_ab_apply]
  exact extractStridedSlice_apply _ _ _ _ _ fun a => match a with
    | ⟨0, _⟩ => (Nat.add_zero _).symm
    | ⟨1, _⟩ => (Nat.zero_add _).symm
    | ⟨2, _⟩ => (Nat.zero_add _).symm

-- row l of a stack of two length-N vectors, copied down M rows
theorem bias_at {N M : ℕ} (l : Fin 2) (x : (⟨2, ![2, N]⟩ : Shape).Idx → α)
    (e : Fin M) (o : Fin N)
    (hs : (⟨2, ![2, N]⟩ : Shape).Slices ![l.val, 0] ⟨2, ![1, N]⟩ := by decide)
    (hc : (⟨2, ![1, N]⟩ : Shape).ShapeCasts ⟨1, ![N]⟩ := by decide)
    (h1 : (⟨1, ![N]⟩ : Shape).BroadcastsInDim ⟨2, ![1, N]⟩ ![1] := by decide)
    (h2 : (⟨2, ![1, N]⟩ : Shape).BroadcastsInDim ⟨2, ![M, N]⟩ ![0, 1] := by decide) :
    broadcastInDim ⟨2, ![M, N]⟩ ![0, 1] h2 (broadcastInDim ⟨2, ![1, N]⟩ ![1] h1
      (shapeCast ⟨1, ![N]⟩ (extractStridedSlice ⟨2, ![1, N]⟩ ![l.val, 0] x hs) hc)) (ix2 e o) = x (ix2 l o) := by
  rw [broadcastInDim_apply _ h2 _ (ix2 e o) (ix2 (0 : Fin 1) o) (fun a => match a with
      | ⟨0, _⟩ => rfl
      | ⟨1, _⟩ => ite_one o),
    broadcastInDim_apply _ h1 _ (ix2 (0 : Fin 1) o) (ix1 o) (fun a => match a with
      | ⟨0, _⟩ => ite_one o),
    shapeCast_1a_a_apply]
  exact extractStridedSlice_apply _ _ _ _ _ fun a => match a with
    | ⟨0, _⟩ => (Nat.add_zero _).symm
    | ⟨1, _⟩ => (Nat.zero_add _).symm

theorem affine_eq {K : ℕ} {a a' w w' : Fin K → EReal} {b b' : EReal} (ha : ∀ k, a k = a' k) (hw : ∀ k, w k = w' k)
    (hb : b = b') : (∑ k, a k * w k) + b = (∑ k, a' k * w' k) + b' := by
  simp only [ha, hw, hb]

end general

-- a read of the table at an index: the index normalised, read signed and clamped
theorem take_at (y : (⟨S32768x128, .f32⟩ : BufTy).Contents (Elt Ideal)) (idx : (⟨S524288x1, .i32⟩ : BufTy).Contents (Elt Ideal)) (w : BitVec 32) (p : Fin 524288)
    (q : Fin 128) (h : idx (ix2 p (0 : Fin 1)) = normIdx w) :
    Host.gather gather_S32768x128_S524288x1_S524288x128_1_0_n_n_0_1_1128 y idx (ix2 p q) = y (ix2 (rowOf w) q) := by
  refine (Cert.TakeRows.take_rows_apply _ rfl rfl rfl rfl rfl (by decide) y idx p q).trans
    (congrArg (fun r : Fin 32768 => y (ix2 r q)) (Fin.ext ?_))
  show min (BitVec.toInt (idx (ix2 p (0 : Fin 1)))).toNat (32768 - 1) = min (BitVec.toInt (normIdx w)).toNat (32768 - 1)
  rw [h]

section cell

variable (P Q : FVec Ideal S32768x384 .f32) (y : FVec Ideal S32768x128 .f32)

def one : FVec Ideal S32768x128 .f32 := broadcastInDim S32768x128 ![] bcast_S_S32768x128 (constant S_ .f32 0x3F800000#32)

def sig (u : FVec Ideal S32768x128 .f32) : FVec Ideal S32768x128 .f32 := Host.divf one (addf one (Host.exp (Host.negf u)))

def gate0 (T : FVec Ideal S32768x384 .f32) : FVec Ideal S32768x128 .f32 :=
  extractStridedSlice S32768x128 ![0, 0] T slices_S32768x384_S32768x128_0_0

def gate1 (T : FVec Ideal S32768x384 .f32) : FVec Ideal S32768x128 .f32 :=
  extractStridedSlice S32768x128 ![0, 128] T slices_S32768x384_S32768x128_0_128

def gate2 (T : FVec Ideal S32768x384 .f32) : FVec Ideal S32768x128 .f32 :=
  extractStridedSlice S32768x128 ![0, 256] T slices_S32768x384_S32768x128_0_256

-- the recurrent cell's operations, the logistic function spelt 1 / (1 + e^(−x))
theorem cell_at (n : Fin 32768) (j : Fin 128) :
    (addf (mulf (subf one (sig (addf (gate1 P) (gate1 Q))))
        (Host.tanh (addf (gate2 P) (mulf (sig (addf (gate0 P) (gate0 Q))) (gate2 Q)))))
      (mulf (sig (addf (gate1 P) (gate1 Q))) y) : FVec Ideal S32768x128 .f32) (ix2 n j)
      = gruCell (fun q => P (ix2 n q)) (fun q => Q (ix2 n q)) (y (ix2 n j)) j := by
  have h0 (T : FVec Ideal S32768x384 .f32) : gate0 T (ix2 n j) = T (ix2 n (g0 j)) :=
    slice2_axis1_apply _ _ _ n j (g0 j) (Nat.zero_add _).symm
  have h1 (T : FVec Ideal S32768x384 .f32) : gate1 T (ix2 n j) = T (ix2 n (g1 j)) := slice2_axis1_apply _ _ _ n j (g1 j) rfl
  have h2 (T : FVec Ideal S32768x384 .f32) : gate2 T (ix2 n j) = T (ix2 n (g2 j)) := slice2_axis1_apply _ _ _ n j (g2 j) rfl
  simp only [gruCell, ← logistic_spelt, ← h0 P, ← h0 Q, ← h1 P, ← h1 Q, ← h2 P, ← h2 Q]
  rfl

end cell

theorem row0 (e : Fin 262144) : val_main_v2 (F := Ideal) x1 (ix1 e) = x1 (ix2 (0 : Fin 2) e) := by
  rw [val_main_v2_apply, val_main_v1_apply]
  exact congrArg x1 (funext fun a => Fin.ext (by
    match a with
    | ⟨0, _⟩ => rfl
    | ⟨1, _⟩ => show e.val % 262144 = e.val; omega))

theorem row1 (e : Fin 262144) : val_main_v4 (F := Ideal) x1 (ix1 e) = x1 (ix2 (1 : Fin 2) e) := by
  rw [val_main_v4_apply, val_main_v3_apply]
  exact congrArg x1 (funext fun a => Fin.ext (by
    match a with
    | ⟨0, _⟩ => rfl
    | ⟨1, _⟩ => show e.val % 262144 = e.val; omega))

theorem v5_lo (e : Fin 262144) :
    val_main_v5 (F := Ideal) x1 (ix1 (⟨e.val, by omega⟩ : Fin 524288)) = x1 (ix2 (0 : Fin 2) e) := by
  refine (concatenate_pair_apply_left (t := S524288) (s₁ := S262144) (s₂ := S262144) 0 _ _ _ _ rfl (ix1 e) ?_).trans (row0 x1 e)
  exact fun b => match b with | ⟨0, _⟩ => rfl

theorem v5_hi (e : Fin 262144) :
    val_main_v5 (F := Ideal) x1 (ix1 (⟨262144 + e.val, by omega⟩ : Fin 524288)) = x1 (ix2 (1 : Fin 2) e) := by
  refine (concatenate_pair_apply_right (t := S524288) (s₁ := S262144) (s₂ := S262144) 0 _ _ _ _ rfl rfl (ix1 e) ?_ ?_).trans
    (row1 x1 e)
  · exact fun b hb => absurd (Subsingleton.elim _ _) hb
  · exact Nat.add_comm _ _

theorem v10_lo (e : Fin 262144) :
    val_main_v10 (F := Ideal) x1 (ix1 (⟨e.val, by omega⟩ : Fin 524288)) = x1 (ix2 (1 : Fin 2) e) := by
  refine (concatenate_pair_apply_left (t := S524288) (s₁ := S262144) (s₂ := S262144) 0 _ _ _ _ rfl (ix1 e) ?_).trans (row1 x1 e)
  exact fun b => match b with | ⟨0, _⟩ => rfl

theorem v10_hi (e : Fin 262144) :
    val_main_v10 (F := Ideal) x1 (ix1 (⟨262144 + e.val, by omega⟩ : Fin 524288)) = x1 (ix2 (0 : Fin 2) e) := by
  refine (concatenate_pair_apply_right (t := S524288) (s₁ := S262144) (s₂ := S262144) 0 _ _ _ _ rfl rfl (ix1 e) ?_ ?_).trans
    (row0 x1 e)
  · exact fun b hb => absurd (Subsingleton.elim _ _) hb
  · exact Nat.add_comm _ _

section reads

variable (y : (⟨S32768x128, .f32⟩ : BufTy).Contents (Elt Ideal)) (F R : FVec Ideal S262144x256 .f32)

-- the table read at the first endpoints then the second, and the other way round, joined along the feature axis
def joined : (⟨S524288x256, .f32⟩ : BufTy).Contents (Elt Ideal) :=
  concatenate S524288x256 1 [⟨S524288x128, Host.gather gather_S32768x128_S524288x1_S524288x128_1_0_n_n_0_1_1128 y (val_main_v16 (F := Ideal) x1)⟩,
    ⟨S524288x128, Host.gather gather_S32768x128_S524288x1_S524288x128_1_0_n_n_0_1_1128 y (val_main_v23 (F := Ideal) x1)⟩] concatenates_S524288x128_S524288x128_S524288x256_d1

theorem joined_lo (p : Fin 524288) (k : Fin 128) :
    joined x1 y (ix2 p (h0 k)) = y (ix2 (rowOf (val_main_v5 (F := Ideal) x1 (ix1 p))) k) := by
  refine (concatenate_pair_apply_left (t := S524288x256) (s₁ := S524288x128) (s₂ := S524288x128) 1 _ _ _ _ rfl (ix2 p k)
    ?_).trans (take_at y _ _ p k ((val_main_v16_apply x1 _).trans (congrArg _ (eq_ix1 _))))
  exact fun b => match b with | ⟨0, _⟩ => rfl | ⟨1, _⟩ => rfl

theorem joined_hi (p : Fin 524288) (k : Fin 128) :
    joined x1 y (ix2 p (h1 k)) = y (ix2 (rowOf (val_main_v10 (F := Ideal) x1 (ix1 p))) k) := by
  refine (concatenate_pair_apply_right (t := S524288x256) (s₁ := S524288x128) (s₂ := S524288x128) 1 _ _ _ _ rfl rfl
    (ix2 p k) ?_ ?_).trans (take_at y _ _ p k ((val_main_v23_apply x1 _).trans (congrArg _ (eq_ix1 _))))
  · exact fun b hb => match b with | ⟨0, _⟩ => rfl | ⟨1, _⟩ => absurd rfl hb
  · exact Nat.add_comm _ _

-- the forward messages then the reverse messages, summed into the nodes in one pass
def summed : FVec Ideal S32768x256 .f32 :=
  Host.scatterAdd (F := Ideal) (φ := .f32) scatter_S32768x256_S524288x1_S524288x256_1_0_0_1 (val_main_v47 (F := Ideal))
    (val_main_v48 (F := Ideal) x1)
    (concatenate S524288x256 0 [⟨S262144x256, F⟩, ⟨S262144x256, R⟩] concatenates_S262144x256_S262144x256_S524288x256_d0)

-- the one-pass sum over 524288 messages is the forward sum plus the reverse sum
theorem summed_at (n : Fin 32768) (o : Fin 256) :
    summed x1 F R (ix2 n o) = agg (fun e => x1 (ix2 (0 : Fin 2) e)) (fun e => x1 (ix2 (1 : Fin 2) e))
      (fun e o => F (ix2 e o)) (fun e o => R (ix2 e o)) n o := by
  have hw (p : Fin 524288) : val_main_v48 (F := Ideal) x1 (ix2 p (0 : Fin 1)) = val_main_v10 (F := Ideal) x1 (ix1 p) :=
    (val_main_v48_apply x1 _).trans (congrArg _ (eq_ix1 _))
  refine (Cert.ScatterRows.scatter_rows_apply (R := 32768) (C := 256) (M := 524288) _ rfl rfl rfl rfl
    (val_main_v47 (F := Ideal)) (val_main_v48 (F := Ideal) x1) _ n o).trans ?_
  rw [show val_main_v47 (F := Ideal) (ix2 n o) = 0 from Ideal.ofBits_zero_f32, zero_add]
  refine agg_of_cat _ _ _ _ (fun p => val_main_v48 (F := Ideal) x1 (ix2 p (0 : Fin 1)))
    (fun p o => concatenate S524288x256 0 [⟨S262144x256, F⟩, ⟨S262144x256, R⟩]
      concatenates_S262144x256_S262144x256_S524288x256_d0 (ix2 p o))
    (fun e => (hw _).trans (v10_lo x1 e)) (fun e => (hw _).trans (v10_hi x1 e)) (fun e o => ?_) (fun e o => ?_) n o
  · refine concatenate_pair_apply_left (t := S524288x256) (s₁ := S262144x256) (s₂ := S262144x256) 0 _ _ _ _ rfl (ix2 e o) ?_
    exact fun b => match b with | ⟨0, _⟩ => rfl | ⟨1, _⟩ => rfl
  · refine concatenate_pair_apply_right (t := S524288x256) (s₁ := S262144x256) (s₂ := S262144x256) 0 _ _ _ _ rfl rfl
      (ix2 e o) ?_ ?_
    · exact fun b hb => match b with | ⟨0, _⟩ => absurd rfl hb | ⟨1, _⟩ => rfl
    · exact Nat.add_comm _ _

end reads

section layer

variable (l : Fin 2) (T O : (⟨S32768x128, .f32⟩ : BufTy).Contents (Elt Ideal)) (F R : FVec Ideal S262144x256 .f32) (P Q : (⟨S32768x384, .f32⟩ : BufTy).Contents (Elt Ideal))

-- one layer from its four affine reads and its cell, for any table T and weight row l
theorem layer_of
    (hF : ∀ (e : Fin 262144) (o : Fin 256), F (ix2 e o)
      = (∑ k : Fin 256, joined x1 T (ix2 (⟨e.val, by omega⟩ : Fin 524288) k) * x2 (ix3 l o k)) + x3 (ix2 l o))
    (hR : ∀ (e : Fin 262144) (o : Fin 256), R (ix2 e o)
      = (∑ k : Fin 256, joined x1 T (ix2 (⟨262144 + e.val, by omega⟩ : Fin 524288) k) * x4 (ix3 l o k)) + x5 (ix2 l o))
    (hP : ∀ (n : Fin 32768) (q : Fin 384),
      P (ix2 n q) = (∑ k : Fin 256, summed x1 F R (ix2 n k) * x6 (ix3 l q k)) + x8 (ix2 l q))
    (hQ : ∀ (n : Fin 32768) (q : Fin 384), Q (ix2 n q) = (∑ k : Fin 128, T (ix2 n k) * x7 (ix3 l q k)) + x9 (ix2 l q))
    (hO : ∀ (n : Fin 32768) (j : Fin 128),
      O (ix2 n j) = gruCell (fun q => P (ix2 n q)) (fun q => Q (ix2 n q)) (T (ix2 n j)) j)
    (n : Fin 32768) (j : Fin 128) :
    O (ix2 n j) = layer (fun n k => T (ix2 n k)) (fun e => x1 (ix2 (0 : Fin 2) e)) (fun e => x1 (ix2 (1 : Fin 2) e))
          (fun o k => x2 (ix3 l o k)) (fun o => x3 (ix2 l o))
          (fun o k => x4 (ix3 l o k)) (fun o => x5 (ix2 l o))
          (fun q k => x6 (ix3 l q k)) (fun q => x8 (ix2 l q))
          (fun q k => x7 (ix3 l q k)) (fun q => x9 (ix2 l q)) n j := by
  rw [hO]
  unfold layer
  refine congrArg₂ (fun gi gh => gruCell gi gh (T (ix2 n j)) j) (funext fun q => ?_) (funext fun q => hQ n q)
  rw [hP]
  refine congrArg (· + x8 (ix2 l q)) (Finset.sum_congr rfl fun k _ => congrArg (· * x6 (ix3 l q k)) ?_)
  rw [summed_at]
  refine congrArg₂ (fun Fw Rv => agg _ _ Fw Rv n k) (funext fun e => funext fun o => ?_) (funext fun e => funext fun o => ?_)
  · rw [hF]
    exact msg_of_cat _ _ (fun o k => x2 (ix3 l o k)) (fun o => x3 (ix2 l o)) e o
      (fun k => joined x1 T (ix2 (⟨e.val, by omega⟩ : Fin 524288) k))
      (fun k => (joined_lo x1 T _ k).trans (congrArg (fun w => T (ix2 (rowOf w) k)) (v5_lo x1 e)))
      (fun k => (joined_hi x1 T _ k).trans (congrArg (fun w => T (ix2 (rowOf w) k)) (v10_lo x1 e)))
  · rw [hR]
    exact msg_of_cat _ _ (fun o k => x4 (ix3 l o k)) (fun o => x5 (ix2 l o)) e o
      (fun k => joined x1 T (ix2 (⟨262144 + e.val, by omega⟩ : Fin 524288) k))
      (fun k => (joined_lo x1 T _ k).trans (congrArg (fun w => T (ix2 (rowOf w) k)) (v5_hi x1 e)))
      (fun k => (joined_hi x1 T _ k).trans (congrArg (fun w => T (ix2 (rowOf w) k)) (v10_hi x1 e)))

end layer

theorem r_layer0 (n : Fin 32768) (j : Fin 128) :
    val_main_v95 (F := Ideal) x0 x1 x2 x3 x4 x5 x6 x7 x8 x9 (ix2 n j)
      = layer (fun n k => val_main_v0 (F := Ideal) x0 (ix2 n k))
          (fun e => x1 (ix2 (0 : Fin 2) e)) (fun e => x1 (ix2 (1 : Fin 2) e))
          (fun o k => x2 (ix3 (0 : Fin 2) o k)) (fun o => x3 (ix2 (0 : Fin 2) o))
          (fun o k => x4 (ix3 (0 : Fin 2) o k)) (fun o => x5 (ix2 (0 : Fin 2) o))
          (fun q k => x6 (ix3 (0 : Fin 2) q k)) (fun q => x8 (ix2 (0 : Fin 2) q))
          (fun q k => x7 (ix3 (0 : Fin 2) q k)) (fun q => x9 (ix2 (0 : Fin 2) q)) n j := by
  refine layer_of x1 x2 x3 x4 x5 x6 x7 x8 x9 0 (val_main_v0 (F := Ideal) x0) (val_main_v95 (F := Ideal) x0 x1 x2 x3 x4 x5 x6 x7 x8 x9)
    (val_main_v35 (F := Ideal) x0 x1 x2 x3) (val_main_v45 (F := Ideal) x0 x1 x4 x5) (val_main_v58 (F := Ideal) x0 x1 x2 x3 x4 x5 x6 x8)
    (val_main_v67 (F := Ideal) x0 x7 x9) ?_ ?_ ?_ ?_ (cell_at _ _ _) n j
  · intro e o
    rw [val_main_v35_apply, val_main_v30_apply, Ideal.addf_def]
    exact affine_eq (fun k => (val_main_v26_apply x0 x1 _).trans (congrArg _ (eq_ix2 _)))
      (fun k => (congrArg _ (eq_ix2 _)).trans (mapT_at 0 x2 k o)) (bias_at 0 x3 e o)
  · intro e o
    rw [val_main_v45_apply, val_main_v40_apply, Ideal.addf_def]
    exact affine_eq (fun k => (val_main_v36_apply x0 x1 _).trans (congrArg _ (eq_ix2 _)))
      (fun k => (congrArg _ (eq_ix2 _)).trans (mapT_at 0 x4 k o)) (bias_at 0 x5 e o)
  · intro n q
    rw [val_main_v58_apply, val_main_v53_apply, Ideal.addf_def]
    exact affine_eq (fun k => congrArg _ (eq_ix2 _)) (fun k => (congrArg _ (eq_ix2 _)).trans (mapT_at 0 x6 k q))
      (bias_at 0 x8 n q)
  · intro n q
    rw [val_main_v67_apply, val_main_v62_apply, Ideal.addf_def]
    exact affine_eq (fun k => congrArg _ (eq_ix2 _)) (fun k => (congrArg _ (eq_ix2 _)).trans (mapT_at 0 x7 k q))
      (bias_at 0 x9 n q)

end Cert.Gnn.R

end
-- ==== Proof.RLayer2.lean ====
import proofs.«181595_j41618233098847_1_alg».proof.Proof.RLayer1

set_option maxRecDepth 16384

noncomputable section

open scoped BigOperators

namespace Cert.Gnn.R

open Idealize.ShloMosaic Idealize.ShloMosaic.ValueIdx
open Cert.ReferenceIdeal Cert.ReferenceIdeal.Gen Cert.ReferenceIdeal.ReadP

variable (x0 : (⟨S256x128x128, .f32⟩ : BufTy).Contents (Elt Ideal)) (x1 : (⟨S2x262144, .i32⟩ : BufTy).Contents (Elt Ideal))
  (x2 : (⟨S2x256x256, .f32⟩ : BufTy).Contents (Elt Ideal)) (x3 : (⟨S2x256, .f32⟩ : BufTy).Contents (Elt Ideal))
  (x4 : (⟨S2x256x256, .f32⟩ : BufTy).Contents (Elt Ideal)) (x5 : (⟨S2x256, .f32⟩ : BufTy).Contents (Elt Ideal))
  (x6 : (⟨S2x384x256, .f32⟩ : BufTy).Contents (Elt Ideal)) (x7 : (⟨S2x384x128, .f32⟩ : BufTy).Contents (Elt Ideal))
  (x8 x9 : (⟨S2x384, .f32⟩ : BufTy).Contents (Elt Ideal))

-- the second layer: the first layer's operations at the first layer's result and at row 1 of every weight
theorem r_layer1 (n : Fin 32768) (j : Fin 128) :
    val_main_v180 (F := Ideal) x0 x1 x2 x3 x4 x5 x6 x7 x8 x9 (ix2 n j)
      = layer (fun n k => val_main_v95 (F := Ideal) x0 x1 x2 x3 x4 x5 x6 x7 x8 x9 (ix2 n k))
          (fun e => x1 (ix2 (0 : Fin 2) e)) (fun e => x1 (ix2 (1 : Fin 2) e))
          (fun o k => x2 (ix3 (1 : Fin 2) o k)) (fun o => x3 (ix2 (1 : Fin 2) o))
          (fun o k => x4 (ix3 (1 : Fin 2) o k)) (fun o => x5 (ix2 (1 : Fin 2) o))
          (fun q k => x6 (ix3 (1 : Fin 2) q k)) (fun q => x8 (ix2 (1 : Fin 2) q))
          (fun q k => x7 (ix3 (1 : Fin 2) q k)) (fun q => x9 (ix2 (1 : Fin 2) q)) n j := by
  refine layer_of x1 x2 x3 x4 x5 x6 x7 x8 x9 1 (val_main_v95 (F := Ideal) x0 x1 x2 x3 x4 x5 x6 x7 x8 x9)
    (val_main_v180 (F := Ideal) x0 x1 x2 x3 x4 x5 x6 x7 x8 x9) (val_main_v120 (F := Ideal) x0 x1 x2 x3 x4 x5 x6 x7 x8 x9)
    (val_main_v130 (F := Ideal) x0 x1 x2 x3 x4 x5 x6 x7 x8 x9) (val_main_v143 (F := Ideal) x0 x1 x2 x3 x4 x5 x6 x7 x8 x9)
    (val_main_v152 (F := Ideal) x0 x1 x2 x3 x4 x5 x6 x7 x8 x9) ?_ ?_ ?_ ?_ (cell_at _ _ _) n j
  · intro e o
    rw [val_main_v120_apply, val_main_v115_apply, Ideal.addf_def]
    exact affine_eq (fun k => (val_main_v111_apply x0 x1 x2 x3 x4 x5 x6 x7 x8 x9 _).trans (congrArg _ (eq_ix2 _)))
      (fun k => (congrArg _ (eq_ix2 _)).trans (mapT_at 1 x2 k o)) (bias_at 1 x3 e o)
  · intro e o
    rw [val_main_v130_apply, val_main_v125_apply, Ideal.addf_def]
    exact affine_eq (fun k => (val_main_v121_apply x0 x1 x2 x3 x4 x5 x6 x7 x8 x9 _).trans (congrArg _ (eq_ix2 _)))
      (fun k => (congrArg _ (eq_ix2 _)).trans (mapT_at 1 x4 k o)) (bias_at 1 x5 e o)
  · intro n q
    rw [val_main_v143_apply, val_main_v138_apply, Ideal.addf_def]
    exact affine_eq (fun k => congrArg _ (eq_ix2 _)) (fun k => (congrArg _ (eq_ix2 _)).trans (mapT_at 1 x6 k q))
      (bias_at 1 x8 n q)
  · intro n q
    rw [val_main_v152_apply, val_main_v147_apply, Ideal.addf_def]
    exact affine_eq (fun k => congrArg _ (eq_ix2 _)) (fun k => (congrArg _ (eq_ix2 _)).trans (mapT_at 1 x7 k q))
      (bias_at 1 x9 n q)

end Cert.Gnn.R

end
-- ==== Proof.ROut.lean ====
import proofs.«181595_j41618233098847_1_alg».proof.Proof.RRead
import proofs.«181595_j41618233098847_1_alg».proof.Proof.Spec
import proofs.«181595_j41618233098847_1_alg».proof.Proof.Algebra

set_option maxRecDepth 16384

noncomputable section

open scoped BigOperators

namespace Cert.Gnn.R

open Idealize.ShloMosaic Idealize.ShloMosaic.ValueIdx
open Cert.ReferenceIdeal Cert.ReferenceIdeal.Gen Cert.ReferenceIdeal.ReadP

variable (x0 : (⟨S256x128x128, .f32⟩ : BufTy).Contents (Elt Ideal)) (x1 : (⟨S2x262144, .i32⟩ : BufTy).Contents (Elt Ideal))
  (x2 : (⟨S2x256x256, .f32⟩ : BufTy).Contents (Elt Ideal)) (x3 : (⟨S2x256, .f32⟩ : BufTy).Contents (Elt Ideal))
  (x4 : (⟨S2x256x256, .f32⟩ : BufTy).Contents (Elt Ideal)) (x5 : (⟨S2x256, .f32⟩ : BufTy).Contents (Elt Ideal))
  (x6 : (⟨S2x384x256, .f32⟩ : BufTy).Contents (Elt Ideal)) (x7 : (⟨S2x384x128, .f32⟩ : BufTy).Contents (Elt Ideal))
  (x8 x9 : (⟨S2x384, .f32⟩ : BufTy).Contents (Elt Ideal))

variable (x10 : (⟨S128x128, .f32⟩ : BufTy).Contents (Elt Ideal)) (x11 : (⟨S128, .f32⟩ : BufTy).Contents (Elt Ideal))
  (x12 : (⟨S1x128, .f32⟩ : BufTy).Contents (Elt Ideal)) (x13 : (⟨S1, .f32⟩ : BufTy).Contents (Elt Ideal))
  (x14 : (⟨S128x128, .f32⟩ : BufTy).Contents (Elt Ideal)) (x15 : (⟨S128, .f32⟩ : BufTy).Contents (Elt Ideal))
  (x16 : (⟨S1x128, .f32⟩ : BufTy).Contents (Elt Ideal)) (x17 : (⟨S1, .f32⟩ : BufTy).Contents (Elt Ideal))

namespace Out

def node (g : Fin 256) (i : Fin 128) : Fin 32768 := ⟨128 * g.val + i.val, by omega⟩

-- equal row-major positions: (128·g + i)·128 + k on both sides
theorem cast_at (y : (⟨S32768x128, .f32⟩ : BufTy).Contents (Elt Ideal)) (g : Fin 256) (i k : Fin 128) :
    shapeCast S256x128x128 y shapeCasts_S32768x128_S256x128x128 (ix3 g i k) = y (ix2 (node g i) k) :=
  shapeCast_apply y shapeCasts_S32768x128_S256x128x128 (ix3 g i k) (ix2 (node g i) k)
    (by rewrite [Shape.rowMajor_val_two, Shape.rowMajor_val_three]
        show (128 * g.val + i.val) * 128 + k.val = (g.val * 128 + i.val) * 128 + k.val
        omega)

theorem hg_feat_at (r : Fin 32768) (f : Fin 128) :
    val_main_v187 (F := Ideal) x0 x1 x2 x3 x4 x5 x6 x7 x8 x9 x10 (ix2 r f) = ∑ k : Fin 128, val_main_v185 (F := Ideal) x0 x1 x2 x3 x4 x5 x6 x7 x8 x9 (ix2 r k) * x10 (ix2 f k) := by
  rw [val_main_v187_apply]
  refine Finset.sum_congr rfl fun k _ => ?_
  rw [val_main_v186_apply]
  exact congrArg₂ (· * ·) (congrArg _ (eq_ix2 _)) (congrArg _ (eq_ix2 _))

theorem hg_bias_at (r : Fin 32768) (f : Fin 128) : val_main_v189 (F := Ideal) x11 (ix2 r f) = x11 (ix1 f) := by
  rw [val_main_v189_apply, val_main_v188_apply]
  exact congrArg _ (eq_ix1 _)

-- the logistic function is spelt 1 / (1 + e^(−x))
theorem hg_gate_at (r : Fin 32768) :
    val_main_v201 (F := Ideal) x0 x1 x2 x3 x4 x5 x6 x7 x8 x9 x12 x13 (ix2 r (0 : Fin 1))
      = Ideal.logistic ((∑ k : Fin 128, val_main_v185 (F := Ideal) x0 x1 x2 x3 x4 x5 x6 x7 x8 x9 (ix2 r k) * x12 (ix2 (0 : Fin 1) k)) + x13 (ix1 (0 : Fin 1))) := by
  have h : val_main_v195 (F := Ideal) x0 x1 x2 x3 x4 x5 x6 x7 x8 x9 x12 x13 (ix2 r (0 : Fin 1))
      = (∑ k : Fin 128, val_main_v185 (F := Ideal) x0 x1 x2 x3 x4 x5 x6 x7 x8 x9 (ix2 r k) * x12 (ix2 (0 : Fin 1) k)) + x13 (ix1 (0 : Fin 1)) := by
    rw [val_main_v195_apply, val_main_v192_apply, val_main_v194_apply, val_main_v193_apply, Ideal.addf_def]
    refine congrArg₂ (· + ·) (Finset.sum_congr rfl fun k _ => ?_) (congrArg _ (eq_ix1 _))
    rw [val_main_v191_apply]
    exact congrArg₂ (· * ·) (congrArg _ (eq_ix2 _)) (congrArg _ (eq_ix2 _))
  rw [val_main_v201_apply, val_main_v200_apply, val_main_v199_apply, val_main_v198_apply,
    val_main_v197_apply, val_main_v196_apply, h, val_main_cst_19_apply, val_main_cst_20_apply]
  rw [Ideal.hostDivf_def, Ideal.addf_def, Ideal.hostUnary_exp_def, Ideal.hostNegf_def, Ideal.negf_def, Ideal.ofBits_def]
  exact logistic_spelt _

theorem hg_prod_at (r : Fin 32768) (f : Fin 128) :
    val_main_v203 (F := Ideal) x0 x1 x2 x3 x4 x5 x6 x7 x8 x9 x10 x11 x12 x13 (ix2 r f)
      = ((∑ k : Fin 128, val_main_v185 (F := Ideal) x0 x1 x2 x3 x4 x5 x6 x7 x8 x9 (ix2 r k) * x10 (ix2 f k)) + x11 (ix1 f))
          * Ideal.logistic ((∑ k : Fin 128, val_main_v185 (F := Ideal) x0 x1 x2 x3 x4 x5 x6 x7 x8 x9 (ix2 r k) * x12 (ix2 (0 : Fin 1) k)) + x13 (ix1 (0 : Fin 1))) := by
  rw [val_main_v203_apply, val_main_v190_apply, val_main_v202_apply,
    show idx_main_v202 (ix2 r f) = ix2 r (0 : Fin 1) from eq_ix2 _, hg_gate_at, hg_feat_at, hg_bias_at,
    Ideal.mulf_def, Ideal.addf_def]

-- node i of graph g is row 128·g + i
theorem hg_sum_at (g : Fin 256) (f : Fin 128) :
    val_main_v205 (F := Ideal) x0 x1 x2 x3 x4 x5 x6 x7 x8 x9 x10 x11 x12 x13 (ix2 g f)
      = ∑ i : Fin 128, val_main_v203 (F := Ideal) x0 x1 x2 x3 x4 x5 x6 x7 x8 x9 x10 x11 x12 x13 (ix2 (node g i) f) := by
  rw [val_main_v205_apply, val_main_cst_21_apply, Ideal.ofBits_def, Ideal.ofBits_zero_f32, zero_add]
  refine Finset.sum_congr rfl fun i _ => ?_
  rw [val_main_v204_apply]
  refine congrArg _ (funext fun a => Fin.ext ?_)
  have hg := g.isLt; have hi := i.isLt; have hf := f.isLt
  match a with
  | ⟨0, _⟩ => show ((g.val * 128 + i.val) * 128 + f.val) / 128 = 128 * g.val + i.val; omega
  | ⟨1, _⟩ => show ((g.val * 128 + i.val) * 128 + f.val) % 128 = f.val; omega

theorem hg_norm_at (g : Fin 256) (f : Fin 128) :
    val_main_v210 (F := Ideal) x0 x1 x2 x3 x4 x5 x6 x7 x8 x9 x10 x11 x12 x13 (ix2 g f)
      = l2row (fun k => val_main_v205 (F := Ideal) x0 x1 x2 x3 x4 x5 x6 x7 x8 x9 x10 x11 x12 x13 (ix2 g k)) f := by
  rw [val_main_v210_apply, val_main_v209_apply, val_main_v208_apply, val_main_v206_apply,
    val_main_call1_v2_apply, val_main_call1_v1_apply, val_main_v207_apply]
  have e (k : Fin 128) : idx_main_call1_v1 (idx_main_call1_v2 (idx_main_v209 (ix2 g f))) k = ix2 g k := eq_ix2 _
  simp only [val_main_call1_v0_apply, val_main_call1_cst_apply, val_main_cst_22_apply, e]
  simp only [Ideal.hostDivf_def, Ideal.maximumf_def, Ideal.hostUnary_sqrt_def, Ideal.ofBits_def, Ideal.mulf_def,
    Ideal.ofBits_zero_f32, zero_add]
  rfl

end Out

open Out

theorem r_norm (n : Fin 32768) (j : Fin 128) :
    val_main_v185 (F := Ideal) x0 x1 x2 x3 x4 x5 x6 x7 x8 x9 (ix2 n j) = l2row (fun k => val_main_v180 (F := Ideal) x0 x1 x2 x3 x4 x5 x6 x7 x8 x9 (ix2 n k)) j := by
  rw [val_main_v185_apply, val_main_v184_apply, val_main_v183_apply, val_main_v181_apply,
    val_main_call0_v2_apply, val_main_call0_v1_apply, val_main_v182_apply]
  have e (k : Fin 128) : idx_main_call0_v1 (idx_main_call0_v2 (idx_main_v184 (ix2 n j))) k = ix2 n k := eq_ix2 _
  simp only [val_main_call0_v0_apply, val_main_call0_cst_apply, val_main_cst_18_apply, e]
  simp only [Ideal.hostDivf_def, Ideal.maximumf_def, Ideal.hostUnary_sqrt_def, Ideal.ofBits_def, Ideal.mulf_def,
    Ideal.ofBits_zero_f32, zero_add]
  rfl

theorem r_out0 :
    val_main_v236 (F := Ideal) x0 x1 x2 x3 x4 x5 x6 x7 x8 x9 = shapeCast S256x128x128 (val_main_v185 (F := Ideal) x0 x1 x2 x3 x4 x5 x6 x7 x8 x9) shapeCasts_S32768x128_S256x128x128 := rfl

theorem r_hg (g : Fin 256) (f : Fin 128) :
    val_main_v210 (F := Ideal) x0 x1 x2 x3 x4 x5 x6 x7 x8 x9 x10 x11 x12 x13 (ix2 g f)
      = readout (fun g i k => shapeCast S256x128x128 (val_main_v185 (F := Ideal) x0 x1 x2 x3 x4 x5 x6 x7 x8 x9) shapeCasts_S32768x128_S256x128x128 (ix3 g i k))
          (fun f k => x10 (ix2 f k)) (fun f => x11 (ix1 f)) (fun k => x12 (ix2 (0 : Fin 1) k)) (x13 (ix1 (0 : Fin 1))) g f := by
  rw [hg_norm_at]
  refine congrArg (l2row · f) (funext fun f' => ?_)
  rw [hg_sum_at]
  refine Finset.sum_congr rfl fun i _ => ?_
  rw [hg_prod_at]
  exact congrArg₂ (· * ·)
    (congrArg₂ (· + ·) (Finset.sum_congr rfl fun k _ => congrArg₂ (· * ·) (cast_at _ g i k).symm rfl) rfl)
    (congrArg Ideal.logistic
      (congrArg₂ (· + ·) (Finset.sum_congr rfl fun k _ => congrArg₂ (· * ·) (cast_at _ g i k).symm rfl) rfl))

-- the second readout is the first one's operations at the other four weights
theorem r_hginit (g : Fin 256) (f : Fin 128) :
    val_main_v235 (F := Ideal) x0 x1 x2 x3 x4 x5 x6 x7 x8 x9 x14 x15 x16 x17 (ix2 g f)
      = readout (fun g i k => shapeCast S256x128x128 (val_main_v185 (F := Ideal) x0 x1 x2 x3 x4 x5 x6 x7 x8 x9) shapeCasts_S32768x128_S256x128x128 (ix3 g i k))
          (fun f k => x14 (ix2 f k)) (fun f => x15 (ix1 f)) (fun k => x16 (ix2 (0 : Fin 1) k)) (x17 (ix1 (0 : Fin 1))) g f :=
  r_hg x0 x1 x2 x3 x4 x5 x6 x7 x8 x9 x14 x15 x16 x17 g f

end Cert.Gnn.R

end
-- ==== Proof.Bridge.lean ====
import proofs.«181595_j41618233098847_1_alg».proof.Proof.Gen.KernelIdeal.Frame
import proofs.«181595_j41618233098847_1_alg».proof.Proof.Spec
import proofs.«181595_j41618233098847_1_alg».proof.Proof.LibHostRead
import proofs.«181595_j41618233098847_1_alg».proof.Proof.LibTakeRows
import proofs.«181595_j41618233098847_1_alg».proof.Proof.KLayer
import proofs.«181595_j41618233098847_1_alg».proof.Proof.RLayer1
import proofs.«181595_j41618233098847_1_alg».proof.Proof.RLayer2
import proofs.«181595_j41618233098847_1_alg».proof.Proof.ROut
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.Gnn.Bridge

open Idealize.ShloMosaic Idealize.ShloMosaic.TcCoe Idealize.ShloMosaic.ValueIdx Idealize.SL.Sem
open Cert.KernelIdeal Cert.KernelIdeal.Gen Cert.Gnn.K

variable (m : (ℓ : Loc nD τ sig) → Buf (Elt Ideal) ℓ) (ρ : Dev nD → PrngReg) (c : Dev nD)

/-- The node table both programs start from: the first argument re-laid as [32768, 128]. -/
theorem hf0_eq : W1 m ρ c (Proc.devRef .tc main_v0) = Cert.ReferenceIdeal.ReadP.val_main_v0 (F := Ideal) (m ((c : Thread nD τ).loc main_arg0)) := by
  have h : W1 m ρ c (Proc.devRef .tc main_v0) = shapeCast S32768x128 (m ((c : Thread nD τ).loc main_arg0)) shapeCasts_S256x128x128_S32768x128 := by
    show StableHlo.after hostOps0 _ (Proc.devRef .tc main_v0) = _
    after_results
    rfl
  rw [h]
  rfl

/-- After the first layer both programs hold the layer of that table. -/
theorem hf1_eq : W4 m ρ c (Proc.devRef .tc main_v61) = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨n, j, rfl⟩ : ∃ (n : Fin 32768) (j : Fin 128), i = ix2 n j := ⟨i 0, i 1, eq_ix2 i⟩
  rw [k_layer0 m ρ c n j, Cert.Gnn.R.r_layer0 _ _ _ _ _ _ _ _ _ _ n j, hf0_eq m ρ c]

/-- After the second layer and the row normalisation likewise. -/
theorem hf2_eq : W8 m ρ c (Proc.devRef .tc main_v118) = Cert.ReferenceIdeal.ReadP.val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨n, j, rfl⟩ : ∃ (n : Fin 32768) (j : Fin 128), i = ix2 n j := ⟨i 0, i 1, eq_ix2 i⟩
  rw [k_layer1 m ρ c n j, Cert.Gnn.R.r_norm _ _ _ _ _ _ _ _ _ _ n j, hf1_eq m ρ c]
  refine congrArg (fun x : Fin 128 → EReal => l2row x j) (funext fun k => ?_)
  exact (Cert.Gnn.R.r_layer1 _ _ _ _ _ _ _ _ _ _ n k).symm

/-- The first result: the normalised node features re-laid as [256, 128, 128]. -/
theorem out0_eq : W10 m ρ c (Proc.devRef .tc main_v123) = Cert.ReferenceIdeal.ReadP.val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [s4_keep m ρ c, s4_x m ρ c, hf2_eq m ρ c, Cert.Gnn.R.r_out0 _ _ _ _ _ _ _ _ _ _]

/-- The second result: the readout with the first set of weights. -/
theorem out1_eq : W10 m ρ c (Proc.devRef .tc main_v128_0) = Cert.ReferenceIdeal.ReadP.val_main_v210 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨g, f, rfl⟩ : ∃ (g : Fin 256) (f : Fin 128), i = ix2 g f := ⟨i 0, i 1, eq_ix2 i⟩
  rw [k_hg m ρ c g f, Cert.Gnn.R.r_hg _ _ _ _ _ _ _ _ _ _ _ _ _ _ g f, s4_x m ρ c, hf2_eq m ρ c]

/-- The third result: the readout with the second set of weights. -/
theorem out2_eq : W10 m ρ c (Proc.devRef .tc main_v128_1) = Cert.ReferenceIdeal.ReadP.val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) := by
  funext i
  obtain ⟨g, f, rfl⟩ : ∃ (g : Fin 256) (f : Fin 128), i = ix2 g f := ⟨i 0, i 1, eq_ix2 i⟩
  rw [k_hginit m ρ c g f, Cert.Gnn.R.r_hginit _ _ _ _ _ _ _ _ _ _ _ _ _ _ g f, s4_x m ρ c, hf2_eq m ρ c]

end Cert.Gnn.Bridge

end
-- ==== Proof.lean ====
import proofs.«181595_j41618233098847_1_alg».proof.Defs
import proofs.«181595_j41618233098847_1_alg».proof.Proof.Gen.Kernel
import proofs.«181595_j41618233098847_1_alg».proof.Proof.Gen.Kernel.Frame
import proofs.«181595_j41618233098847_1_alg».proof.Proof.Gen.KernelIdeal
import proofs.«181595_j41618233098847_1_alg».proof.Proof.Gen.KernelIdeal.Frame
import proofs.«181595_j41618233098847_1_alg».proof.Proof.Gen.ReferenceIdeal
import proofs.«181595_j41618233098847_1_alg».proof.Proof.Gen.Pre_finite_inputs
import proofs.«181595_j41618233098847_1_alg».proof.Proof.KRun
import proofs.«181595_j41618233098847_1_alg».proof.Proof.RValue
import proofs.«181595_j41618233098847_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2)
    (Cert.ReferenceIdeal.Stages.run m ρ)

/-- Both programs run; the kernel's three results and the reference's are the same stages of the same arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W10 m ρ c (Proc.devRef .tc Cert.KernelIdeal.main_v123),
    fun c => Cert.KernelIdeal.Gen.W10 m ρ c (Proc.devRef .tc Cert.KernelIdeal.main_v128_0),
    fun c => Cert.KernelIdeal.Gen.W10 m ρ c (Proc.devRef .tc Cert.KernelIdeal.main_v128_1),
    Cert.Gnn.KRun.run (F := Ideal) m ρ, ?_⟩
  refine (θ_run Cert.ReferenceIdeal.defs _ _).mono (fun r h c => ?_) (Cert.ReferenceIdeal.Stages.run m' ρ')
  obtain ⟨h0, h1, h2, hargs⟩ := h c
  obtain ⟨e0, e1, e2, e3, e4, e5, e6, e7, e8, e9, e10, e11, e12, e13, e14, e15, e16, e17⟩ := hagree c
  refine ⟨?_, ?_, ?_, hargs⟩
  · rw [h0, e0, e1, e2, e3, e4, e5, e6, e7, e8, e9]
    exact (Cert.Gnn.Bridge.out0_eq m ρ c).symm
  · rw [h1, e0, e1, e2, e3, e4, e5, e6, e7, e8, e9, e10, e11, e12, e13]
    exact (Cert.Gnn.Bridge.out1_eq m ρ c).symm
  · rw [h2, e0, e1, e2, e3, e4, e5, e6, e7, e8, e9, e14, e15, e16, e17]
    exact (Cert.Gnn.Bridge.out2_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
